-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S256x128 : Shape := ⟨2, ![256, 128]⟩
abbrev S10000x128 : Shape := ⟨2, ![10000, 128]⟩
abbrev S10000x1 : Shape := ⟨2, ![10000, 1]⟩
abbrev S10000x256 : Shape := ⟨2, ![10000, 256]⟩
abbrev S256x384 : Shape := ⟨2, ![256, 384]⟩

abbrev nBuf : Space → Nat
  | .hbm => 96
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .bf16⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .bf16⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128x128, .f32⟩
  | .hbm, ⟨27, _⟩ => ⟨S128x128, .f32⟩
  | .hbm, ⟨28, _⟩ => ⟨S1x128, .f32⟩
  | .hbm, ⟨29, _⟩ => ⟨S128, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S50000x1, .i32⟩
  | .hbm, ⟨37, _⟩ => ⟨S50000x128, .f32⟩
  | .hbm, ⟨38, _⟩ => ⟨S256x128, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S50000x1, .i32⟩
  | .hbm, ⟨65, _⟩ => ⟨S50000x128, .f32⟩
  | .hbm, ⟨66, _⟩ => ⟨S256x128, .f32⟩
  | .hbm, ⟨67, _⟩ => ⟨S50000x128, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .bf16⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S50000x1, .i32⟩
  | .hbm, ⟨93, _⟩ => ⟨S50000x128, .f32⟩
  | .hbm, ⟨94, _⟩ => ⟨S256x128, .f32⟩
  | .hbm, ⟨95, _⟩ => ⟨S256x384, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x1, .i32⟩
  | .local _ .vmem, ⟨9, _⟩ => ⟨S10000x1, .i32⟩
  | .local _ .vmem, ⟨10, _⟩ => ⟨S10000x128, .f32⟩
  | .local _ .vmem, ⟨11, _⟩ => ⟨S10000x128, .f32⟩
  | .local _ .vmem, ⟨12, _⟩ => ⟨S256x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S10000x1, .i32⟩
  | .local _ .vmem, ⟨22, _⟩ => ⟨S10000x1, .i32⟩
  | .local _ .vmem, ⟨23, _⟩ => ⟨S10000x128, .f32⟩
  | .local _ .vmem, ⟨24, _⟩ => ⟨S10000x128, .f32⟩
  | .local _ .vmem, ⟨25, _⟩ => ⟨S256x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S10000x1, .i32⟩
  | .local _ .vmem, ⟨35, _⟩ => ⟨S10000x1, .i32⟩
  | .local _ .vmem, ⟨36, _⟩ => ⟨S10000x128, .f32⟩
  | .local _ .vmem, ⟨37, _⟩ => ⟨S10000x128, .f32⟩
  | .local _ .vmem, ⟨38, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v28 : Ref sig .tc := ⟨.hbm, 39, rfl⟩
abbrev main_c_1 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev main_v52 : Ref sig .tc := ⟨.hbm, 67, rfl⟩
abbrev main_c_4 : Ref sig .tc := ⟨.hbm, 68, rfl⟩
abbrev main_v53 : Ref sig .tc := ⟨.hbm, 69, rfl⟩
abbrev main_v54 : Ref sig .tc := ⟨.hbm, 70, rfl⟩
abbrev main_c_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75_0 : Ref sig .tc := ⟨.hbm, 93, rfl⟩
abbrev main_v75_1 : Ref sig .tc := ⟨.hbm, 94, rfl⟩
abbrev main_v76 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S50000_S50000x1 : S50000.ShapeCasts S50000x1
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  iota_S10000x256_d1_w32 : S10000x256.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  natLt_1_32 : 1 < 32
  shapeCasts_S256x128_S256x128 : S256x128.ShapeCasts S256x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S256x128_S256x128_S256x128_S256x384_d1 : Shape.Concatenates [S256x128, S256x128, S256x128] S256x384 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x256_S10000x128_S256x128_0_0_1_1_n_n_wf : DotDims.WF S10000x256 S10000x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S50000x1.size a
  hwx0_6 : ∀ i : grid0.Coords, EltTy.bits .i32 = 32 ∨ (Rect.block (s := S50000x1) S10000x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S50000x128.size a
  hwx0_7 : ∀ i : grid0.Coords, EltTy.bits .f32 = 32 ∨ (Rect.block (s := S50000x128) S10000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S50000x1.size a
  hwx1_6 : ∀ i : grid1.Coords, EltTy.bits .i32 = 32 ∨ (Rect.block (s := S50000x1) S10000x1.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .f32 = 32 ∨ (Rect.block (s := S256x128) S256x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S50000x1.size a
  hwx2_6 : ∀ i : grid2.Coords, EltTy.bits .i32 = 32 ∨ (Rect.block (s := S50000x1) S10000x1.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S50000x128.size a
  hwx2_7 : ∀ i : grid2.Coords, EltTy.bits .f32 = 32 ∨ (Rect.block (s := S50000x128) S10000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S10000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S256x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S10000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v51_0) S10000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v51_1) S256x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v51_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S10000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v75_0) S10000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v75_1) S256x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256x128 : Shape := ⟨2, ![256, 128]⟩
abbrev S50000x1 : Shape := ⟨2, ![50000, 1]⟩
abbrev S256x384 : Shape := ⟨2, ![256, 384]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128x128, .f32⟩
  | 6 => ⟨S3x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S256x128, .f32⟩
  | 49 => ⟨S50000x1, .i32⟩
  | 50 => ⟨S256x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .f32⟩
  | 88 => ⟨S256x128, .f32⟩
  | 89 => ⟨S50000x1, .i32⟩
  | 90 => ⟨S256x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S256x128, .f32⟩
  | 1 => ⟨S50000x1, .i32⟩
  | 2 => ⟨S256x128, .f32⟩
  | 3 => ⟨S256x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_10 : Ref sig .tc := ⟨.hbm, 91, rfl⟩
abbrev main_v72 : Ref sig .tc := ⟨.hbm, 92, rfl⟩
abbrev main_v73 : Ref sig .tc := ⟨.hbm, 93, rfl⟩
abbrev main_c_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_13 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_14 : Ref sig .tc := ⟨.hbm, 124, rfl⟩
abbrev main_v101 : Ref sig .tc := ⟨.hbm, 125, rfl⟩
abbrev main_v102 : Ref sig .tc := ⟨.hbm, 126, rfl⟩
abbrev main_cst_15 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S256x128_S256x128_S256x128_S256x384_d1 : Shape.Concatenates [S256x128, S256x128, S256x128] S256x384 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.K.K0.Data.lean ====
import proofs.«404761_j17377437680137_2_alg».proof.Proof.Gen.Kernel.Launch
import proofs.«404761_j17377437680137_2_alg».proof.Proof.Gen.Kernel.Skeleton
import proofs.«404761_j17377437680137_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay0 (x0 x1 : Vec F S10000x128 .f32) (x2 : Vec F S128x128 .f32) (x3 : Vec F S1x128 .f32)
    (x4 : Vec F S128x128 .f32) (x5 : Vec F S1x128 .f32) : FVec F S10000x128 .f32 :=
  k0_pay3 x0 x1 x2 x3 x4 x5

/-- The pooled block after a point: what it held before plus the tile's one-hot-pooled activations. -/
def step0 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k0_pay1 (k0_pay4 x0 x1 x2 x3 x4 x5 x6) prev

def zero0 : FVec F S256x128 .f32 := k0_pay2 (F := F)

theorem hz0 : (![0, 0] : Fin 2 → Nat) = fun _ => 0 := funext fun a => by fin_cases a <;> rfl

/-- The body's one condition holds at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0_0 (c : Dev nD) (t : Fin cfg0.N) : Vec F S10000x128 .f32 := iblk0 V c 0 t
abbrev xb0_1 (c : Dev nD) (t : Fin cfg0.N) : Vec F S10000x128 .f32 := iblk0 V c 1 t
abbrev xb0_2 (c : Dev nD) (t : Fin cfg0.N) : Vec F S128x128 .f32 := iblk0 V c 2 t
abbrev xb0_3 (c : Dev nD) (t : Fin cfg0.N) : Vec F S1x128 .f32 := iblk0 V c 3 t
abbrev xb0_4 (c : Dev nD) (t : Fin cfg0.N) : Vec F S128x128 .f32 := iblk0 V c 4 t
abbrev xb0_5 (c : Dev nD) (t : Fin cfg0.N) : Vec F S1x128 .f32 := iblk0 V c 5 t
abbrev xb0_6 (c : Dev nD) (t : Fin cfg0.N) : Vec F S10000x1 .i32 := iblk0 V c 6 t

def oAt0 (c : Dev nD) (t : Fin cfg0.N) : Vec F S10000x128 .f32 :=
  oPay0 (xb0_0 V c t) (xb0_1 V c t) (xb0_2 V c t) (xb0_3 V c t) (xb0_4 V c t) (xb0_5 V c t)

/-- Point `t`'s step of the pooled block over `prev`. -/
def stepAt0 (c : Dev nD) (t : Fin cfg0.N) (prev : Vec F S256x128 .f32) : Vec F S256x128 .f32 :=
  step0 (xb0_0 V c t) (xb0_1 V c t) (xb0_2 V c t) (xb0_3 V c t) (xb0_4 V c t) (xb0_5 V c t) (xb0_6 V c t) prev

/-- The pooled block after point `n`: the points' steps up to `n`, in order, over the zero block. -/
def poolAt0 (c : Dev nD) : (n : ℕ) → n < cfg0.N → Vec F S256x128 .f32
  | 0, hn => stepAt0 V c ⟨0, hn⟩ (zero0 (F := F))
  | n + 1, hn => stepAt0 V c ⟨n + 1, hn⟩ (poolAt0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => oAt0 V c t
    | ⟨8, _⟩ => poolAt0 V c t.val t.isLt
  Φ _ := Pipeline.ΦA spec0 c
  q _ := fullShare
  owed _ := 0

theorem A_eq0 (c : Dev nD) (w : Fin cfg0.W) : (dat0 V c).A w = V c (Pipeline.arrRef spec0 w) := rfl
theorem after0_in (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t :=
  ⟨rfl, rfl, rfl, rfl, rfl, rfl, rfl⟩
theorem after0_7 (c : Dev nD) (t : Fin cfg0.N) : (dat0 V c).after 7 t = oAt0 V c t := rfl
theorem after0_8 (c : Dev nD) (t : Fin cfg0.N) : (dat0 V c).after 8 t = poolAt0 V c t.val t.isLt := rfl

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) := by
  refine ⟨?_, ?_, ?_, ?_, ?_, ?_, ?_⟩ <;> intro d <;>
    exact ((dat0 V c).before_in_eq_fetched _ rfl (fun _ => rfl) (fun _ _ _ => rfl) (fun _ => rfl) t d).trans rfl

theorem before0_8 (c : Dev nD) (t : Fin cfg0.N) (h0 : ¬t.val = 0) (d) :
    (dat0 V c).before 8 t d = poolAt0 V c (t.val - 1) (Nat.lt_of_le_of_lt (Nat.sub_le _ _) t.isLt) := by
  have hN : t.val < 5 := lt_of_lt_of_eq t.isLt (show cfg0.N = 5 from N_0)
  rw [Dat.before_out_kept _ 8 rfl t h0 (Bool.eq_false_iff.mpr fun h => by have := (flush0_8 _).mp h; dsimp only at this; omega)
    (fun _ => rfl) (fun _ _ => rfl)]
  rfl

/-- The pooled block after point `t`: the point's step, over the zero block at the first point, over the block after
    the point before at a later one. -/
theorem pool_eq0 (c : Dev nD) (t : Fin cfg0.N) (d) :
    poolAt0 V c t.val t.isLt = stepAt0 V c t (if cond0_0 (grid0.coords t) then zero0 else (dat0 V c).before 8 t d) := by
  obtain ⟨n, hn⟩ := t
  cases n with
  | zero => rw [if_pos ((hcond0_0 ⟨0, hn⟩).mpr rfl)]; rfl
  | succ n =>
    rw [if_neg fun h => Nat.succ_ne_zero n ((hcond0_0 ⟨n + 1, hn⟩).mp h), before0_8 V c ⟨n + 1, hn⟩ (Nat.succ_ne_zero n)]
    rfl

end

end Cert.Kernel.Fr

end
-- ==== Proof.K.K1.Data.lean ====
import proofs.«404761_j17377437680137_2_alg».proof.Proof.Gen.Kernel.Launch
import proofs.«404761_j17377437680137_2_alg».proof.Proof.Gen.Kernel.Skeleton
import proofs.«404761_j17377437680137_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay1 (x0 x1 : Vec F S10000x128 .f32) (x2 : Vec F S128x128 .f32) (x3 : Vec F S1x128 .f32)
    (x4 : Vec F S128x128 .f32) (x5 : Vec F S1x128 .f32) : FVec F S10000x128 .f32 :=
  k1_pay3 x0 x1 x2 x3 x4 x5

/-- The pooled block after a point: what it held before plus the tile's one-hot-pooled activations. -/
def step1 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k1_pay1 (k1_pay3 x0 x1 x2 x3 x4 x5) (k1_pay4 x6) (constant S256x128 .f32 0x00000000#32) prev

def zero1 : FVec F S256x128 .f32 := k1_pay2 (F := F)

theorem hz1 : (![0, 0] : Fin 2 → Nat) = fun _ => 0 := funext fun a => by fin_cases a <;> rfl

/-- The body's one condition holds at the first grid point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1_0 (c : Dev nD) (t : Fin cfg1.N) : Vec F S10000x128 .f32 := iblk1 V c 0 t
abbrev xb1_1 (c : Dev nD) (t : Fin cfg1.N) : Vec F S10000x128 .f32 := iblk1 V c 1 t
abbrev xb1_2 (c : Dev nD) (t : Fin cfg1.N) : Vec F S128x128 .f32 := iblk1 V c 2 t
abbrev xb1_3 (c : Dev nD) (t : Fin cfg1.N) : Vec F S1x128 .f32 := iblk1 V c 3 t
abbrev xb1_4 (c : Dev nD) (t : Fin cfg1.N) : Vec F S128x128 .f32 := iblk1 V c 4 t
abbrev xb1_5 (c : Dev nD) (t : Fin cfg1.N) : Vec F S1x128 .f32 := iblk1 V c 5 t
abbrev xb1_6 (c : Dev nD) (t : Fin cfg1.N) : Vec F S10000x1 .i32 := iblk1 V c 6 t

def oAt1 (c : Dev nD) (t : Fin cfg1.N) : Vec F S10000x128 .f32 :=
  oPay1 (xb1_0 V c t) (xb1_1 V c t) (xb1_2 V c t) (xb1_3 V c t) (xb1_4 V c t) (xb1_5 V c t)

/-- Point `t`'s step of the pooled block over `prev`. -/
def stepAt1 (c : Dev nD) (t : Fin cfg1.N) (prev : Vec F S256x128 .f32) : Vec F S256x128 .f32 :=
  step1 (xb1_0 V c t) (xb1_1 V c t) (xb1_2 V c t) (xb1_3 V c t) (xb1_4 V c t) (xb1_5 V c t) (xb1_6 V c t) prev

/-- The pooled block after point `n`: the points' steps up to `n`, in order, over the zero block. -/
def poolAt1 (c : Dev nD) : (n : ℕ) → n < cfg1.N → Vec F S256x128 .f32
  | 0, hn => stepAt1 V c ⟨0, hn⟩ (zero1 (F := F))
  | n + 1, hn => stepAt1 V c ⟨n + 1, hn⟩ (poolAt1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => oAt1 V c t
    | ⟨8, _⟩ => poolAt1 V c t.val t.isLt
  Φ _ := Pipeline.ΦA spec1 c
  q _ := fullShare
  owed _ := 0

theorem A_eq1 (c : Dev nD) (w : Fin cfg1.W) : (dat1 V c).A w = V c (Pipeline.arrRef spec1 w) := rfl
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t :=
  ⟨rfl, rfl, rfl, rfl, rfl, rfl, rfl⟩
theorem after1_7 (c : Dev nD) (t : Fin cfg1.N) : (dat1 V c).after 7 t = oAt1 V c t := rfl
theorem after1_8 (c : Dev nD) (t : Fin cfg1.N) : (dat1 V c).after 8 t = poolAt1 V c t.val t.isLt := rfl

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> intro d <;>
    exact ((dat1 V c).before_in_eq_fetched _ rfl (fun _ => rfl) (fun _ _ _ => rfl) (fun _ => rfl) t d).trans rfl

theorem before1_8 (c : Dev nD) (t : Fin cfg1.N) (h0 : ¬t.val = 0) (d) :
    (dat1 V c).before 8 t d = poolAt1 V c (t.val - 1) (Nat.lt_of_le_of_lt (Nat.sub_le _ _) t.isLt) := by
  have hN : t.val < 5 := lt_of_lt_of_eq t.isLt (show cfg1.N = 5 from N_1)
  rw [Dat.before_out_kept _ 8 rfl t h0 (Bool.eq_false_iff.mpr fun h => by have := (flush1_8 _).mp h; dsimp only at this; omega)
    (fun _ => rfl) (fun _ _ => rfl)]
  rfl

/-- The pooled block after point `t`: the point's step, over the zero block at the first point, over the block after
    the point before at a later one. -/
theorem pool_eq1 (c : Dev nD) (t : Fin cfg1.N) (d) :
    poolAt1 V c t.val t.isLt = stepAt1 V c t (if cond1_0 (grid1.coords t) then zero1 else (dat1 V c).before 8 t d) := by
  obtain ⟨n, hn⟩ := t
  cases n with
  | zero => rw [if_pos ((hcond1_0 ⟨0, hn⟩).mpr rfl)]; rfl
  | succ n =>
    rw [if_neg fun h => Nat.succ_ne_zero n ((hcond1_0 ⟨n + 1, hn⟩).mp h), before1_8 V c ⟨n + 1, hn⟩ (Nat.succ_ne_zero n)]
    rfl

end

end Cert.Kernel.Fr

end
-- ==== Proof.K.K2.Data.lean ====
import proofs.«404761_j17377437680137_2_alg».proof.Proof.Gen.Kernel.Launch
import proofs.«404761_j17377437680137_2_alg».proof.Proof.Gen.Kernel.Skeleton
import proofs.«404761_j17377437680137_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay2 (x0 x1 : Vec F S10000x128 .f32) (x2 : Vec F S128x128 .f32) (x3 : Vec F S1x128 .f32)
    (x4 : Vec F S128x128 .f32) (x5 : Vec F S1x128 .f32) : FVec F S10000x128 .f32 :=
  k2_pay3 x0 x1 x2 x3 x4 x5

/-- The pooled block after a point: what it held before plus the tile's one-hot-pooled activations. -/
def step2 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k2_pay1 (k2_pay3 x0 x1 x2 x3 x4 x5) (k2_pay4 x6) (constant S256x128 .f32 0x00000000#32) prev

def zero2 : FVec F S256x128 .f32 := k2_pay2 (F := F)

theorem hz2 : (![0, 0] : Fin 2 → Nat) = fun _ => 0 := funext fun a => by fin_cases a <;> rfl

/-- The body's one condition holds at the first grid point only. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2_0 (c : Dev nD) (t : Fin cfg2.N) : Vec F S10000x128 .f32 := iblk2 V c 0 t
abbrev xb2_1 (c : Dev nD) (t : Fin cfg2.N) : Vec F S10000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t
abbrev xb2_4 (c : Dev nD) (t : Fin cfg2.N) : Vec F S128x128 .f32 := iblk2 V c 4 t
abbrev xb2_5 (c : Dev nD) (t : Fin cfg2.N) : Vec F S1x128 .f32 := iblk2 V c 5 t
abbrev xb2_6 (c : Dev nD) (t : Fin cfg2.N) : Vec F S10000x1 .i32 := iblk2 V c 6 t

def oAt2 (c : Dev nD) (t : Fin cfg2.N) : Vec F S10000x128 .f32 :=
  oPay2 (xb2_0 V c t) (xb2_1 V c t) (xb2_2 V c t) (xb2_3 V c t) (xb2_4 V c t) (xb2_5 V c t)

/-- Point `t`'s step of the pooled block over `prev`. -/
def stepAt2 (c : Dev nD) (t : Fin cfg2.N) (prev : Vec F S256x128 .f32) : Vec F S256x128 .f32 :=
  step2 (xb2_0 V c t) (xb2_1 V c t) (xb2_2 V c t) (xb2_3 V c t) (xb2_4 V c t) (xb2_5 V c t) (xb2_6 V c t) prev

/-- The pooled block after point `n`: the points' steps up to `n`, in order, over the zero block. -/
def poolAt2 (c : Dev nD) : (n : ℕ) → n < cfg2.N → Vec F S256x128 .f32
  | 0, hn => stepAt2 V c ⟨0, hn⟩ (zero2 (F := F))
  | n + 1, hn => stepAt2 V c ⟨n + 1, hn⟩ (poolAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => oAt2 V c t
    | ⟨8, _⟩ => poolAt2 V c t.val t.isLt
  Φ _ := Pipeline.ΦA spec2 c
  q _ := fullShare
  owed _ := 0

theorem A_eq2 (c : Dev nD) (w : Fin cfg2.W) : (dat2 V c).A w = V c (Pipeline.arrRef spec2 w) := rfl
theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t :=
  ⟨rfl, rfl, rfl, rfl, rfl, rfl, rfl⟩
theorem after2_7 (c : Dev nD) (t : Fin cfg2.N) : (dat2 V c).after 7 t = oAt2 V c t := rfl
theorem after2_8 (c : Dev nD) (t : Fin cfg2.N) : (dat2 V c).after 8 t = poolAt2 V c t.val t.isLt := rfl

theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> intro d <;>
    exact ((dat2 V c).before_in_eq_fetched _ rfl (fun _ => rfl) (fun _ _ _ => rfl) (fun _ => rfl) t d).trans rfl

theorem before2_8 (c : Dev nD) (t : Fin cfg2.N) (h0 : ¬t.val = 0) (d) :
    (dat2 V c).before 8 t d = poolAt2 V c (t.val - 1) (Nat.lt_of_le_of_lt (Nat.sub_le _ _) t.isLt) := by
  have hN : t.val < 5 := lt_of_lt_of_eq t.isLt (show cfg2.N = 5 from N_2)
  rw [Dat.before_out_kept _ 8 rfl t h0 (Bool.eq_false_iff.mpr fun h => by have := (flush2_8 _).mp h; dsimp only at this; omega)
    (fun _ => rfl) (fun _ _ => rfl)]
  rfl

/-- The pooled block after point `t`: the point's step, over the zero block at the first point, over the block after
    the point before at a later one. -/
theorem pool_eq2 (c : Dev nD) (t : Fin cfg2.N) (d) :
    poolAt2 V c t.val t.isLt = stepAt2 V c t (if cond2_0 (grid2.coords t) then zero2 else (dat2 V c).before 8 t d) := by
  obtain ⟨n, hn⟩ := t
  cases n with
  | zero => rw [if_pos ((hcond2_0 ⟨0, hn⟩).mpr rfl)]; rfl
  | succ n =>
    rw [if_neg fun h => Nat.succ_ne_zero n ((hcond2_0 ⟨n + 1, hn⟩).mp h), before2_8 V c ⟨n + 1, hn⟩ (Nat.succ_ne_zero n)]
    rfl

end

end Cert.Kernel.Fr

end
-- ==== Proof.K.Fold.lean ====
import proofs.«404761_j17377437680137_2_alg».proof.Proof.K.K0.Data
import proofs.«404761_j17377437680137_2_alg».proof.Proof.K.K1.Data
import proofs.«404761_j17377437680137_2_alg».proof.Proof.K.K2.Data
import Idealize.ShloMosaic.Lib.Pipeline.FrameSuffix
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 (c : Dev nD) : Valuation τ sig (Elt F) := StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 (c : Dev nD) : Valuation τ sig (Elt F) := StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev W7 (c : Dev nD) : Valuation τ sig (Elt F) := StableHlo.after hostOps3 (W6 m c)

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b

end Cert.Kernel.Fr

end
-- ==== Proof.LibWholeStore.lean ====
import Idealize.ShloMosaic.Lib.Pipeline.Value

namespace Idealize.ShloMosaic.View

variable {Val : EltTy → Type} {S : Shape} {e : EltTy}

/-- A whole store made last decides what the view reads, whatever was stored before it. -/
theorem read_whole_store [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (Piece Val S e)) {X : S.Idx → Val e} (hw : w = X) :
    v.read Val (v.writes Val f (⟨Rect.unit off S.size inb, w⟩ :: L)) = X :=
  hw ▸ (read_writes_eq_canon v f _ fun y => ⟨_, List.mem_cons.mpr (Or.inl rfl), mem_set_unit_zero h inb y⟩).trans
    (canon_cons_unit_zero h inb w L)

end Idealize.ShloMosaic.View
-- ==== Proof.K.K0.Run.lean ====
import proofs.«404761_j17377437680137_2_alg».proof.Proof.K.K0.Data
import proofs.«404761_j17377437680137_2_alg».proof.Proof.LibWholeStore

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run0 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay0 x0 x1 x2 x3 x4 x5)
            ∗ owns (c : Thread nD τ) arg9 fullShare (step0 x0 x1 x2 x3 x4 x5 x6 (if cond0_0 i then zero0 else d9))) -∗ K ⟨⟩))
      ⊢ wp frame (wpE (defs₀ (F := F)) Variants.none c none) E (cc0__mlp_pool_kernel i arg1 harg1 arg2 harg2 arg3 harg3 arg4 harg4 arg5 harg5 arg6 harg6 arg7 harg7 arg8 harg8 arg9 harg9) K := by
  simp only [cc0__mlp_pool_kernel_eq_skeleton]; unfold cc0__mlp_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond0_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz0 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz0, View.ld_unit_zero (S := S128x128) hz0, View.ld_unit_zero (S := S1x128) hz0, View.ld_unit_zero (S := S10000x1) hz0, View.ld_unit_zero (S := S256x128) hz0, View.readCov_unit_zero (S := S256x128) _ hz0]; rfl)

end Cert.Kernel.Fr

end
-- ==== Proof.K.K0.Body.lean ====
import proofs.«404761_j17377437680137_2_alg».proof.Proof.K.K0.Run

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
    ⊢ wp frame (wpE (defs₀ (F := F)) Variants.none c none) Set.univ (bodyAt0 t) (fun _ =>
    iprop((dat0 V c).Φ t.succ ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t)
      ∗ owns (c : Thread nD τ) (st0_4 t) fullShare ((dat0 V c).after 4 t)
      ∗ owns (c : Thread nD τ) (st0_5 t) fullShare ((dat0 V c).after 5 t)
      ∗ owns (c : Thread nD τ) (st0_6 t) fullShare ((dat0 V c).after 6 t)
      ∗ owns (c : Thread nD τ) (st0_7 t) fullShare ((dat0 V c).after 7 t)
      ∗ owns (c : Thread nD τ) (st0_8 t) fullShare ((dat0 V c).after 8 t))) := by
  unfold bodyAt0
  obtain ⟨b0, b1, b2, b3, b4, b5, b6⟩ := before0_in V c t
  obtain ⟨a0, a1, a2, a3, a4, a5, a6⟩ := after0_in V c t
  simp only [b0, b1, b2, b3, b4, b5, b6]
  rw [show (dat0 V c).Φ t.succ = (dat0 V c).Φ t.castSucc from rfl,
    show (dat0 V c).owesAt () t.succ = (dat0 V c).owesAt () t.castSucc from rfl, a0, a1, a2, a3, a4, a5, a6, after0_7, after0_8]
  unfold oAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq0 V c t d8]
  unfold stepAt0
  iapply (run0 c (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.K1.Run.lean ====
import proofs.«404761_j17377437680137_2_alg».proof.Proof.K.K1.Data
import proofs.«404761_j17377437680137_2_alg».proof.Proof.LibWholeStore

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run1 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay1 x0 x1 x2 x3 x4 x5)
            ∗ owns (c : Thread nD τ) arg9 fullShare (step1 x0 x1 x2 x3 x4 x5 x6 (if cond1_0 i then zero1 else d9))) -∗ K ⟨⟩))
      ⊢ wp frame (wpE (defs₀ (F := F)) Variants.none c none) E (cc1__mlp_pool_kernel i arg1 harg1 arg2 harg2 arg3 harg3 arg4 harg4 arg5 harg5 arg6 harg6 arg7 harg7 arg8 harg8 arg9 harg9) K := by
  simp only [cc1__mlp_pool_kernel_eq_skeleton]; unfold cc1__mlp_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond1_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz1 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz1, View.ld_unit_zero (S := S128x128) hz1, View.ld_unit_zero (S := S1x128) hz1, View.ld_unit_zero (S := S10000x1) hz1, View.ld_unit_zero (S := S256x128) hz1, View.readCov_unit_zero (S := S256x128) _ hz1]; rfl)

end Cert.Kernel.Fr

end
-- ==== Proof.K.K1.Body.lean ====
import proofs.«404761_j17377437680137_2_alg».proof.Proof.K.K1.Run

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d)))
    ⊢ wp frame (wpE (defs₀ (F := F)) Variants.none c none) Set.univ (bodyAt1 t) (fun _ =>
    iprop((dat1 V c).Φ t.succ ∗ (dat1 V c).owesAt () t.succ
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)
      ∗ owns (c : Thread nD τ) (st1_4 t) fullShare ((dat1 V c).after 4 t)
      ∗ owns (c : Thread nD τ) (st1_5 t) fullShare ((dat1 V c).after 5 t)
      ∗ owns (c : Thread nD τ) (st1_6 t) fullShare ((dat1 V c).after 6 t)
      ∗ owns (c : Thread nD τ) (st1_7 t) fullShare ((dat1 V c).after 7 t)
      ∗ owns (c : Thread nD τ) (st1_8 t) fullShare ((dat1 V c).after 8 t))) := by
  unfold bodyAt1
  obtain ⟨b0, b1, b2, b3, b4, b5, b6⟩ := before1_in V c t
  obtain ⟨a0, a1, a2, a3, a4, a5, a6⟩ := after1_in V c t
  simp only [b0, b1, b2, b3, b4, b5, b6]
  rw [show (dat1 V c).Φ t.succ = (dat1 V c).Φ t.castSucc from rfl,
    show (dat1 V c).owesAt () t.succ = (dat1 V c).owesAt () t.castSucc from rfl, a0, a1, a2, a3, a4, a5, a6, after1_7, after1_8]
  unfold oAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq1 V c t d8]
  unfold stepAt1
  iapply (run1 c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.K2.Run.lean ====
import proofs.«404761_j17377437680137_2_alg».proof.Proof.K.K2.Data
import proofs.«404761_j17377437680137_2_alg».proof.Proof.LibWholeStore

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run2 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay2 x0 x1 x2 x3 x4 x5)
            ∗ owns (c : Thread nD τ) arg9 fullShare (step2 x0 x1 x2 x3 x4 x5 x6 (if cond2_0 i then zero2 else d9))) -∗ K ⟨⟩))
      ⊢ wp frame (wpE (defs₀ (F := F)) Variants.none c none) E (cc2__mlp_pool_kernel i arg1 harg1 arg2 harg2 arg3 harg3 arg4 harg4 arg5 harg5 arg6 harg6 arg7 harg7 arg8 harg8 arg9 harg9) K := by
  simp only [cc2__mlp_pool_kernel_eq_skeleton]; unfold cc2__mlp_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond2_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz2 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz2, View.ld_unit_zero (S := S128x128) hz2, View.ld_unit_zero (S := S1x128) hz2, View.ld_unit_zero (S := S10000x1) hz2, View.ld_unit_zero (S := S256x128) hz2, View.readCov_unit_zero (S := S256x128) _ hz2]; rfl)

end Cert.Kernel.Fr

end
-- ==== Proof.K.K2.Body.lean ====
import proofs.«404761_j17377437680137_2_alg».proof.Proof.K.K2.Run

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
    ⊢ wp frame (wpE (defs₀ (F := F)) Variants.none c none) Set.univ (bodyAt2 t) (fun _ =>
    iprop((dat2 V c).Φ t.succ ∗ (dat2 V c).owesAt () t.succ
      ∗ owns (c : Thread nD τ) (st2_0 t) fullShare ((dat2 V c).after 0 t)
      ∗ owns (c : Thread nD τ) (st2_1 t) fullShare ((dat2 V c).after 1 t)
      ∗ owns (c : Thread nD τ) (st2_2 t) fullShare ((dat2 V c).after 2 t)
      ∗ owns (c : Thread nD τ) (st2_3 t) fullShare ((dat2 V c).after 3 t)
      ∗ owns (c : Thread nD τ) (st2_4 t) fullShare ((dat2 V c).after 4 t)
      ∗ owns (c : Thread nD τ) (st2_5 t) fullShare ((dat2 V c).after 5 t)
      ∗ owns (c : Thread nD τ) (st2_6 t) fullShare ((dat2 V c).after 6 t)
      ∗ owns (c : Thread nD τ) (st2_7 t) fullShare ((dat2 V c).after 7 t)
      ∗ owns (c : Thread nD τ) (st2_8 t) fullShare ((dat2 V c).after 8 t))) := by
  unfold bodyAt2
  obtain ⟨b0, b1, b2, b3, b4, b5, b6⟩ := before2_in V c t
  obtain ⟨a0, a1, a2, a3, a4, a5, a6⟩ := after2_in V c t
  simp only [b0, b1, b2, b3, b4, b5, b6]
  rw [show (dat2 V c).Φ t.succ = (dat2 V c).Φ t.castSucc from rfl,
    show (dat2 V c).owesAt () t.succ = (dat2 V c).owesAt () t.castSucc from rfl, a0, a1, a2, a3, a4, a5, a6, after2_7, after2_8]
  unfold oAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq2 V c t d8]
  unfold stepAt2
  iapply (run2 c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.K.Launch.lean ====
import proofs.«404761_j17377437680137_2_alg».proof.Proof.K.Fold
import proofs.«404761_j17377437680137_2_alg».proof.Proof.K.K0.Body
import proofs.«404761_j17377437680137_2_alg».proof.Proof.K.K1.Body
import proofs.«404761_j17377437680137_2_alg».proof.Proof.K.K2.Body
import proofs.«404761_j17377437680137_2_alg».proof.Proof.Gen.Kernel.Launch
import proofs.«404761_j17377437680137_2_alg».proof.Proof.Gen.Kernel.Points
import proofs.«404761_j17377437680137_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m c (Proc.devRef .tc r) = W0 m c (Proc.devRef .tc r) :=
  StableHlo.after_of_writes_sub hostOps0 _ hostOps0_writes h

theorem W3_of (c : Dev nD) (r : Ref sig .tc) (h : r ∉ hostOps1_W) : W3 m c (Proc.devRef .tc r) = W2 m c (Proc.devRef .tc r) :=
  StableHlo.after_of_writes_sub hostOps1 _ hostOps1_writes h

theorem W5_of (c : Dev nD) (r : Ref sig .tc) (h : r ∉ hostOps2_W) : W5 m c (Proc.devRef .tc r) = W4 m c (Proc.devRef .tc r) :=
  StableHlo.after_of_writes_sub hostOps2 _ hostOps2_writes h

theorem W7_of (c : Dev nD) (r : Ref sig .tc) (h : r ∉ hostOps3_W) : W7 m c (Proc.devRef .tc r) = W6 m c (Proc.devRef .tc r) :=
  StableHlo.after_of_writes_sub hostOps3 _ hostOps3_writes h

/-- A buffer no host stretch writes and no region names ends as launched. -/
theorem W7_kept (c : Dev nD) (r : Ref sig .tc)
    (h : r ∉ hostOps3_W ∧ (∀ w, Pipeline.arrRef spec2 w ≠ r) ∧ r ∉ hostOps2_W ∧ (∀ w, Pipeline.arrRef spec1 w ≠ r)
      ∧ r ∉ hostOps1_W ∧ (∀ w, Pipeline.arrRef spec0 w ≠ r) ∧ r ∉ hostOps0_W) :
    W7 m c (Proc.devRef .tc r) = m ((c : Thread nD τ).loc r) :=
  (W7_of m c r h.1).trans <| (W6_of_ne m c r h.2.1).trans <| (W5_of m c r h.2.2.1).trans <| (W4_of_ne m c r h.2.2.2.1).trans <|
    (W3_of m c r h.2.2.2.2.1).trans <| (W2_of_ne m c r h.2.2.2.2.2.1).trans (W1_of m c r h.2.2.2.2.2.2)

/-- The first argument is an input array of the first region, and an input array is left as found. -/
theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_arr m c 0).trans <|
    ((dat0 (V1 m) c).arrAt_in 0 rfl _).trans (W1_of m c main_arg0 (by decide))

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A kernel region as a segment of @main, from the contents `Win` of every buffer to the contents `Wout`. -/
def regOf (p : Fin 3) (lf : Pipeline.LaunchFacts (nD := nD) (τ := τ) cfgs p) (Win Wout : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hrec : ∀ c t, (pdats m p c).recorded t = Set.univ)
    (hΦ : ∀ c i, (pdats m p c).Φ i = Pipeline.ΦA (cfgs p).spec c)
    (hA : ∀ c w, (pdats m p c).A w = Win c (Proc.devRef .tc (Pipeline.arrRef (cfgs p).spec w)))
    (hF : ∀ c w, (pdats m p c).arrAt w (cfgs p).N = Wout c (Proc.devRef .tc (Pipeline.arrRef (cfgs p).spec w)))
    (hrest : ∀ c (b : Ref sig .tc), (∀ w, Pipeline.arrRef (cfgs p).spec w ≠ b) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Win c b
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W, HO⟩; iexists W; isplitr; · ipureintro; exact fun _ _ => Or.inl (hrec c 0 ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c (Fin.last _)]
    icases HO with ⟨%W, -, HO⟩; iexists W; iexact HO

abbrev reg0 := regOf m 0 launch0 (W1 m) (W2 m) (body_obligation0 (V1 m)) (fun _ _ => rfl) (fun _ _ => rfl) (fun _ _ => rfl)
  (fun _ _ => rfl) (fun _ _ => rfl) (fun c w => (W2_arr m c w).symm) (W2_of_ne m)
abbrev reg1 := regOf m 1 launch1 (W3 m) (W4 m) (body_obligation1 (V3 m)) (fun _ _ => rfl) (fun _ _ => rfl) (fun _ _ => rfl)
  (fun _ _ => rfl) (fun _ _ => rfl) (fun c w => (W4_arr m c w).symm) (W4_of_ne m)
abbrev reg2 := regOf m 2 launch2 (W5 m) (W6 m) (body_obligation2 (V5 m)) (fun _ _ => rfl) (fun _ _ => rfl) (fun _ _ => rfl)
  (fun _ _ => rfl) (fun _ _ => rfl) (fun c w => (W6_arr m c w).symm) (W6_of_ne m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := by
  rewrite [main_chain c, Pipeline.Seg.run_eq_chain]
  rfl

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- A final state that reads every unscoped buffer at the last boundary's contents has the arguments as launched. -/
theorem kept (r : PUnit × MemSt nD τ sig (Elt F))
    (h : ∀ c : Dev nD, ∀ b ∈ Pipeline.ucRefs τ sig, r.2.mem (((c : Thread nD τ)).1, b) = W7 m c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c _ (mem_uc main_arg0 (by decide))).trans (W7_main_arg0 m c),
    (h c _ (mem_uc main_arg1 (by decide))).trans (W7_kept m c main_arg1 (by decide)),
    (h c _ (mem_uc main_arg2 (by decide))).trans (W7_kept m c main_arg2 (by decide)),
    (h c _ (mem_uc main_arg3 (by decide))).trans (W7_kept m c main_arg3 (by decide)),
    (h c _ (mem_uc main_arg4 (by decide))).trans (W7_kept m c main_arg4 (by decide)),
    (h c _ (mem_uc main_arg5 (by decide))).trans (W7_kept m c main_arg5 (by decide)),
    (h c _ (mem_uc main_arg6 (by decide))).trans (W7_kept m c main_arg6 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h => kept m r h) (run_all m ρ)

end Cert.Kernel.Fr

end
-- ==== Proof.KI.K0.Data.lean ====
import proofs.«404761_j17377437680137_2_alg».proof.Proof.Gen.KernelIdeal.Launch
import proofs.«404761_j17377437680137_2_alg».proof.Proof.Gen.KernelIdeal.Skeleton
import proofs.«404761_j17377437680137_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay0 (x0 x1 : Vec F S10000x128 .f32) (x2 : Vec F S128x128 .f32) (x3 : Vec F S1x128 .f32)
    (x4 : Vec F S128x128 .f32) (x5 : Vec F S1x128 .f32) : FVec F S10000x128 .f32 :=
  k0_pay3 x0 x1 x2 x3 x4 x5

/-- The pooled block after a point: what it held before plus the tile's one-hot-pooled activations. -/
def step0 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k0_pay1 (k0_pay4 x0 x1 x2 x3 x4 x5 x6) prev

def zero0 : FVec F S256x128 .f32 := k0_pay2 (F := F)

theorem hz0 : (![0, 0] : Fin 2 → Nat) = fun _ => 0 := funext fun a => by fin_cases a <;> rfl

/-- The body's one condition holds at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0_0 (c : Dev nD) (t : Fin cfg0.N) : Vec F S10000x128 .f32 := iblk0 V c 0 t
abbrev xb0_1 (c : Dev nD) (t : Fin cfg0.N) : Vec F S10000x128 .f32 := iblk0 V c 1 t
abbrev xb0_2 (c : Dev nD) (t : Fin cfg0.N) : Vec F S128x128 .f32 := iblk0 V c 2 t
abbrev xb0_3 (c : Dev nD) (t : Fin cfg0.N) : Vec F S1x128 .f32 := iblk0 V c 3 t
abbrev xb0_4 (c : Dev nD) (t : Fin cfg0.N) : Vec F S128x128 .f32 := iblk0 V c 4 t
abbrev xb0_5 (c : Dev nD) (t : Fin cfg0.N) : Vec F S1x128 .f32 := iblk0 V c 5 t
abbrev xb0_6 (c : Dev nD) (t : Fin cfg0.N) : Vec F S10000x1 .i32 := iblk0 V c 6 t

def oAt0 (c : Dev nD) (t : Fin cfg0.N) : Vec F S10000x128 .f32 :=
  oPay0 (xb0_0 V c t) (xb0_1 V c t) (xb0_2 V c t) (xb0_3 V c t) (xb0_4 V c t) (xb0_5 V c t)

/-- Point `t`'s step of the pooled block over `prev`. -/
def stepAt0 (c : Dev nD) (t : Fin cfg0.N) (prev : Vec F S256x128 .f32) : Vec F S256x128 .f32 :=
  step0 (xb0_0 V c t) (xb0_1 V c t) (xb0_2 V c t) (xb0_3 V c t) (xb0_4 V c t) (xb0_5 V c t) (xb0_6 V c t) prev

/-- The pooled block after point `n`: the points' steps up to `n`, in order, over the zero block. -/
def poolAt0 (c : Dev nD) : (n : ℕ) → n < cfg0.N → Vec F S256x128 .f32
  | 0, hn => stepAt0 V c ⟨0, hn⟩ (zero0 (F := F))
  | n + 1, hn => stepAt0 V c ⟨n + 1, hn⟩ (poolAt0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => oAt0 V c t
    | ⟨8, _⟩ => poolAt0 V c t.val t.isLt
  Φ _ := Pipeline.ΦA spec0 c
  q _ := fullShare
  owed _ := 0

theorem A_eq0 (c : Dev nD) (w : Fin cfg0.W) : (dat0 V c).A w = V c (Pipeline.arrRef spec0 w) := rfl
theorem after0_in (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t :=
  ⟨rfl, rfl, rfl, rfl, rfl, rfl, rfl⟩
theorem after0_7 (c : Dev nD) (t : Fin cfg0.N) : (dat0 V c).after 7 t = oAt0 V c t := rfl
theorem after0_8 (c : Dev nD) (t : Fin cfg0.N) : (dat0 V c).after 8 t = poolAt0 V c t.val t.isLt := rfl

theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) := by
  refine ⟨?_, ?_, ?_, ?_, ?_, ?_, ?_⟩ <;> intro d <;>
    exact ((dat0 V c).before_in_eq_fetched _ rfl (fun _ => rfl) (fun _ _ _ => rfl) (fun _ => rfl) t d).trans rfl

theorem before0_8 (c : Dev nD) (t : Fin cfg0.N) (h0 : ¬t.val = 0) (d) :
    (dat0 V c).before 8 t d = poolAt0 V c (t.val - 1) (Nat.lt_of_le_of_lt (Nat.sub_le _ _) t.isLt) := by
  have hN : t.val < 5 := lt_of_lt_of_eq t.isLt (show cfg0.N = 5 from N_0)
  rw [Dat.before_out_kept _ 8 rfl t h0 (Bool.eq_false_iff.mpr fun h => by have := (flush0_8 _).mp h; dsimp only at this; omega)
    (fun _ => rfl) (fun _ _ => rfl)]
  rfl

/-- The pooled block after point `t`: the point's step, over the zero block at the first point, over the block after
    the point before at a later one. -/
theorem pool_eq0 (c : Dev nD) (t : Fin cfg0.N) (d) :
    poolAt0 V c t.val t.isLt = stepAt0 V c t (if cond0_0 (grid0.coords t) then zero0 else (dat0 V c).before 8 t d) := by
  obtain ⟨n, hn⟩ := t
  cases n with
  | zero => rw [if_pos ((hcond0_0 ⟨0, hn⟩).mpr rfl)]; rfl
  | succ n =>
    rw [if_neg fun h => Nat.succ_ne_zero n ((hcond0_0 ⟨n + 1, hn⟩).mp h), before0_8 V c ⟨n + 1, hn⟩ (Nat.succ_ne_zero n)]
    rfl

end

end Cert.KernelIdeal.Fr

end
-- ==== Proof.KI.K1.Data.lean ====
import proofs.«404761_j17377437680137_2_alg».proof.Proof.Gen.KernelIdeal.Launch
import proofs.«404761_j17377437680137_2_alg».proof.Proof.Gen.KernelIdeal.Skeleton
import proofs.«404761_j17377437680137_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay1 (x0 x1 : Vec F S10000x128 .f32) (x2 : Vec F S128x128 .f32) (x3 : Vec F S1x128 .f32)
    (x4 : Vec F S128x128 .f32) (x5 : Vec F S1x128 .f32) : FVec F S10000x128 .f32 :=
  k1_pay3 x0 x1 x2 x3 x4 x5

/-- The pooled block after a point: what it held before plus the tile's one-hot-pooled activations. -/
def step1 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k1_pay1 (k1_pay3 x0 x1 x2 x3 x4 x5) (k1_pay4 x6) (constant S256x128 .f32 0x00000000#32) prev

def zero1 : FVec F S256x128 .f32 := k1_pay2 (F := F)

theorem hz1 : (![0, 0] : Fin 2 → Nat) = fun _ => 0 := funext fun a => by fin_cases a <;> rfl

/-- The body's one condition holds at the first grid point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1_0 (c : Dev nD) (t : Fin cfg1.N) : Vec F S10000x128 .f32 := iblk1 V c 0 t
abbrev xb1_1 (c : Dev nD) (t : Fin cfg1.N) : Vec F S10000x128 .f32 := iblk1 V c 1 t
abbrev xb1_2 (c : Dev nD) (t : Fin cfg1.N) : Vec F S128x128 .f32 := iblk1 V c 2 t
abbrev xb1_3 (c : Dev nD) (t : Fin cfg1.N) : Vec F S1x128 .f32 := iblk1 V c 3 t
abbrev xb1_4 (c : Dev nD) (t : Fin cfg1.N) : Vec F S128x128 .f32 := iblk1 V c 4 t
abbrev xb1_5 (c : Dev nD) (t : Fin cfg1.N) : Vec F S1x128 .f32 := iblk1 V c 5 t
abbrev xb1_6 (c : Dev nD) (t : Fin cfg1.N) : Vec F S10000x1 .i32 := iblk1 V c 6 t

def oAt1 (c : Dev nD) (t : Fin cfg1.N) : Vec F S10000x128 .f32 :=
  oPay1 (xb1_0 V c t) (xb1_1 V c t) (xb1_2 V c t) (xb1_3 V c t) (xb1_4 V c t) (xb1_5 V c t)

/-- Point `t`'s step of the pooled block over `prev`. -/
def stepAt1 (c : Dev nD) (t : Fin cfg1.N) (prev : Vec F S256x128 .f32) : Vec F S256x128 .f32 :=
  step1 (xb1_0 V c t) (xb1_1 V c t) (xb1_2 V c t) (xb1_3 V c t) (xb1_4 V c t) (xb1_5 V c t) (xb1_6 V c t) prev

/-- The pooled block after point `n`: the points' steps up to `n`, in order, over the zero block. -/
def poolAt1 (c : Dev nD) : (n : ℕ) → n < cfg1.N → Vec F S256x128 .f32
  | 0, hn => stepAt1 V c ⟨0, hn⟩ (zero1 (F := F))
  | n + 1, hn => stepAt1 V c ⟨n + 1, hn⟩ (poolAt1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => oAt1 V c t
    | ⟨8, _⟩ => poolAt1 V c t.val t.isLt
  Φ _ := Pipeline.ΦA spec1 c
  q _ := fullShare
  owed _ := 0

theorem A_eq1 (c : Dev nD) (w : Fin cfg1.W) : (dat1 V c).A w = V c (Pipeline.arrRef spec1 w) := rfl
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t :=
  ⟨rfl, rfl, rfl, rfl, rfl, rfl, rfl⟩
theorem after1_7 (c : Dev nD) (t : Fin cfg1.N) : (dat1 V c).after 7 t = oAt1 V c t := rfl
theorem after1_8 (c : Dev nD) (t : Fin cfg1.N) : (dat1 V c).after 8 t = poolAt1 V c t.val t.isLt := rfl

theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;> intro d <;>
    exact ((dat1 V c).before_in_eq_fetched _ rfl (fun _ => rfl) (fun _ _ _ => rfl) (fun _ => rfl) t d).trans rfl

theorem before1_8 (c : Dev nD) (t : Fin cfg1.N) (h0 : ¬t.val = 0) (d) :
    (dat1 V c).before 8 t d = poolAt1 V c (t.val - 1) (Nat.lt_of_le_of_lt (Nat.sub_le _ _) t.isLt) := by
  have hN : t.val < 5 := lt_of_lt_of_eq t.isLt (show cfg1.N = 5 from N_1)
  rw [Dat.before_out_kept _ 8 rfl t h0 (Bool.eq_false_iff.mpr fun h => by have := (flush1_8 _).mp h; dsimp only at this; omega)
    (fun _ => rfl) (fun _ _ => rfl)]
  rfl

/-- The pooled block after point `t`: the point's step, over the zero block at the first point, over the block after
    the point before at a later one. -/
theorem pool_eq1 (c : Dev nD) (t : Fin cfg1.N) (d) :
    poolAt1 V c t.val t.isLt = stepAt1 V c t (if cond1_0 (grid1.coords t) then zero1 else (dat1 V c).before 8 t d) := by
  obtain ⟨n, hn⟩ := t
  cases n with
  | zero => rw [if_pos ((hcond1_0 ⟨0, hn⟩).mpr rfl)]; rfl
  | succ n =>
    rw [if_neg fun h => Nat.succ_ne_zero n ((hcond1_0 ⟨n + 1, hn⟩).mp h), before1_8 V c ⟨n + 1, hn⟩ (Nat.succ_ne_zero n)]
    rfl

end

end Cert.KernelIdeal.Fr

end
-- ==== Proof.KI.K2.Data.lean ====
import proofs.«404761_j17377437680137_2_alg».proof.Proof.Gen.KernelIdeal.Launch
import proofs.«404761_j17377437680137_2_alg».proof.Proof.Gen.KernelIdeal.Skeleton
import proofs.«404761_j17377437680137_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's activations of one row tile. -/
def oPay2 (x0 x1 : Vec F S10000x128 .f32) (x2 : Vec F S128x128 .f32) (x3 : Vec F S1x128 .f32)
    (x4 : Vec F S128x128 .f32) (x5 : Vec F S1x128 .f32) : FVec F S10000x128 .f32 :=
  k2_pay3 x0 x1 x2 x3 x4 x5

/-- The pooled block after a point: what it held before plus the tile's one-hot-pooled activations. -/
def step2 (x0 x1 : Vec F S10000x128 .f32) (x2 : Vec F S128x128 .f32) (x3 : Vec F S1x128 .f32)
    (x4 : Vec F S128x128 .f32) (x5 : Vec F S1x128 .f32) (x6 : Vec F S10000x1 .i32)
    (prev : Vec F S256x128 .f32) : FVec F S256x128 .f32 :=
  k2_pay1 (k2_pay3 x0 x1 x2 x3 x4 x5) (k2_pay4 x6) (constant S256x128 .f32 0x00000000#32) prev

def zero2 : FVec F S256x128 .f32 := k2_pay2 (F := F)

theorem hz2 : (![0, 0] : Fin 2 → Nat) = fun _ => 0 := funext fun a => by fin_cases a <;> rfl

/-- The body's one condition holds at the first grid point only. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2_0 (c : Dev nD) (t : Fin cfg2.N) : Vec F S10000x128 .f32 := iblk2 V c 0 t
abbrev xb2_1 (c : Dev nD) (t : Fin cfg2.N) : Vec F S10000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t
abbrev xb2_4 (c : Dev nD) (t : Fin cfg2.N) : Vec F S128x128 .f32 := iblk2 V c 4 t
abbrev xb2_5 (c : Dev nD) (t : Fin cfg2.N) : Vec F S1x128 .f32 := iblk2 V c 5 t
abbrev xb2_6 (c : Dev nD) (t : Fin cfg2.N) : Vec F S10000x1 .i32 := iblk2 V c 6 t

def oAt2 (c : Dev nD) (t : Fin cfg2.N) : Vec F S10000x128 .f32 :=
  oPay2 (xb2_0 V c t) (xb2_1 V c t) (xb2_2 V c t) (xb2_3 V c t) (xb2_4 V c t) (xb2_5 V c t)

/-- Point `t`'s step of the pooled block over `prev`. -/
def stepAt2 (c : Dev nD) (t : Fin cfg2.N) (prev : Vec F S256x128 .f32) : Vec F S256x128 .f32 :=
  step2 (xb2_0 V c t) (xb2_1 V c t) (xb2_2 V c t) (xb2_3 V c t) (xb2_4 V c t) (xb2_5 V c t) (xb2_6 V c t) prev

/-- The pooled block after point `n`: the points' steps up to `n`, in order, over the zero block. -/
def poolAt2 (c : Dev nD) : (n : ℕ) → n < cfg2.N → Vec F S256x128 .f32
  | 0, hn => stepAt2 V c ⟨0, hn⟩ (zero2 (F := F))
  | n + 1, hn => stepAt2 V c ⟨n + 1, hn⟩ (poolAt2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => oAt2 V c t
    | ⟨8, _⟩ => poolAt2 V c t.val t.isLt
  Φ _ := Pipeline.ΦA spec2 c
  q _ := fullShare
  owed _ := 0

theorem A_eq2 (c : Dev nD) (w : Fin cfg2.W) : (dat2 V c).A w = V c (Pipeline.arrRef spec2 w) := rfl
theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t :=
  ⟨rfl, rfl, rfl, rfl, rfl, rfl, rfl⟩
theorem after2_7 (c : Dev nD) (t : Fin cfg2.N) : (dat2 V c).after 7 t = oAt2 V c t := rfl
theorem after2_8 (c : Dev nD) (t : Fin cfg2.N) : (dat2 V c).after 8 t = poolAt2 V c t.val t.isLt := rfl

theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) := by
  refine ⟨?_, ?_, ?_, ?_, ?_, ?_, ?_⟩ <;> intro d <;>
    exact ((dat2 V c).before_in_eq_fetched _ rfl (fun _ => rfl) (fun _ _ _ => rfl) (fun _ => rfl) t d).trans rfl

theorem before2_8 (c : Dev nD) (t : Fin cfg2.N) (h0 : ¬t.val = 0) (d) :
    (dat2 V c).before 8 t d = poolAt2 V c (t.val - 1) (Nat.lt_of_le_of_lt (Nat.sub_le _ _) t.isLt) := by
  have hN : t.val < 5 := lt_of_lt_of_eq t.isLt (show cfg2.N = 5 from N_2)
  rw [Dat.before_out_kept _ 8 rfl t h0 (Bool.eq_false_iff.mpr fun h => by have := (flush2_8 _).mp h; dsimp only at this; omega)
    (fun _ => rfl) (fun _ _ => rfl)]
  rfl

/-- The pooled block after point `t`: the point's step, over the zero block at the first point, over the block after
    the point before at a later one. -/
theorem pool_eq2 (c : Dev nD) (t : Fin cfg2.N) (d) :
    poolAt2 V c t.val t.isLt = stepAt2 V c t (if cond2_0 (grid2.coords t) then zero2 else (dat2 V c).before 8 t d) := by
  obtain ⟨n, hn⟩ := t
  cases n with
  | zero => rw [if_pos ((hcond2_0 ⟨0, hn⟩).mpr rfl)]; rfl
  | succ n =>
    rw [if_neg fun h => Nat.succ_ne_zero n ((hcond2_0 ⟨n + 1, hn⟩).mp h), before2_8 V c ⟨n + 1, hn⟩ (Nat.succ_ne_zero n)]
    rfl

end

end Cert.KernelIdeal.Fr

end
-- ==== Proof.KI.Fold.lean ====
import proofs.«404761_j17377437680137_2_alg».proof.Proof.KI.K0.Data
import proofs.«404761_j17377437680137_2_alg».proof.Proof.KI.K1.Data
import proofs.«404761_j17377437680137_2_alg».proof.Proof.KI.K2.Data
import Idealize.ShloMosaic.Lib.Pipeline.FrameSuffix
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev W3 (c : Dev nD) : Valuation τ sig (Elt F) := StableHlo.after hostOps1 (W2 m c)
abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev W5 (c : Dev nD) : Valuation τ sig (Elt F) := StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

abbrev W7 (c : Dev nD) : Valuation τ sig (Elt F) := StableHlo.after hostOps3 (W6 m c)

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b

end Cert.KernelIdeal.Fr

end
-- ==== Proof.KI.K0.Run.lean ====
import proofs.«404761_j17377437680137_2_alg».proof.Proof.KI.K0.Data
import proofs.«404761_j17377437680137_2_alg».proof.Proof.LibWholeStore

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run0 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay0 x0 x1 x2 x3 x4 x5)
            ∗ owns (c : Thread nD τ) arg9 fullShare (step0 x0 x1 x2 x3 x4 x5 x6 (if cond0_0 i then zero0 else d9))) -∗ K ⟨⟩))
      ⊢ wp frame (wpE (defs₀ (F := F)) Variants.none c none) E (cc0__mlp_pool_kernel i arg1 harg1 arg2 harg2 arg3 harg3 arg4 harg4 arg5 harg5 arg6 harg6 arg7 harg7 arg8 harg8 arg9 harg9) K := by
  simp only [cc0__mlp_pool_kernel_eq_skeleton]; unfold cc0__mlp_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond0_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz0 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz0, View.ld_unit_zero (S := S128x128) hz0, View.ld_unit_zero (S := S1x128) hz0, View.ld_unit_zero (S := S10000x1) hz0, View.ld_unit_zero (S := S256x128) hz0, View.readCov_unit_zero (S := S256x128) _ hz0]; rfl)

end Cert.KernelIdeal.Fr

end
-- ==== Proof.KI.K0.Body.lean ====
import proofs.«404761_j17377437680137_2_alg».proof.Proof.KI.K0.Run

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
    ⊢ wp frame (wpE (defs₀ (F := F)) Variants.none c none) Set.univ (bodyAt0 t) (fun _ =>
    iprop((dat0 V c).Φ t.succ ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t)
      ∗ owns (c : Thread nD τ) (st0_4 t) fullShare ((dat0 V c).after 4 t)
      ∗ owns (c : Thread nD τ) (st0_5 t) fullShare ((dat0 V c).after 5 t)
      ∗ owns (c : Thread nD τ) (st0_6 t) fullShare ((dat0 V c).after 6 t)
      ∗ owns (c : Thread nD τ) (st0_7 t) fullShare ((dat0 V c).after 7 t)
      ∗ owns (c : Thread nD τ) (st0_8 t) fullShare ((dat0 V c).after 8 t))) := by
  unfold bodyAt0
  obtain ⟨b0, b1, b2, b3, b4, b5, b6⟩ := before0_in V c t
  obtain ⟨a0, a1, a2, a3, a4, a5, a6⟩ := after0_in V c t
  simp only [b0, b1, b2, b3, b4, b5, b6]
  rw [show (dat0 V c).Φ t.succ = (dat0 V c).Φ t.castSucc from rfl,
    show (dat0 V c).owesAt () t.succ = (dat0 V c).owesAt () t.castSucc from rfl, a0, a1, a2, a3, a4, a5, a6, after0_7, after0_8]
  unfold oAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq0 V c t d8]
  unfold stepAt0
  iapply (run0 c (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.K1.Run.lean ====
import proofs.«404761_j17377437680137_2_alg».proof.Proof.KI.K1.Data
import proofs.«404761_j17377437680137_2_alg».proof.Proof.LibWholeStore

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run1 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay1 x0 x1 x2 x3 x4 x5)
            ∗ owns (c : Thread nD τ) arg9 fullShare (step1 x0 x1 x2 x3 x4 x5 x6 (if cond1_0 i then zero1 else d9))) -∗ K ⟨⟩))
      ⊢ wp frame (wpE (defs₀ (F := F)) Variants.none c none) E (cc1__mlp_pool_kernel i arg1 harg1 arg2 harg2 arg3 harg3 arg4 harg4 arg5 harg5 arg6 harg6 arg7 harg7 arg8 harg8 arg9 harg9) K := by
  simp only [cc1__mlp_pool_kernel_eq_skeleton]; unfold cc1__mlp_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond1_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz1 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz1, View.ld_unit_zero (S := S128x128) hz1, View.ld_unit_zero (S := S1x128) hz1, View.ld_unit_zero (S := S10000x1) hz1, View.ld_unit_zero (S := S256x128) hz1, View.readCov_unit_zero (S := S256x128) _ hz1]; rfl)

end Cert.KernelIdeal.Fr

end
-- ==== Proof.KI.K1.Body.lean ====
import proofs.«404761_j17377437680137_2_alg».proof.Proof.KI.K1.Run

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d)))
    ⊢ wp frame (wpE (defs₀ (F := F)) Variants.none c none) Set.univ (bodyAt1 t) (fun _ =>
    iprop((dat1 V c).Φ t.succ ∗ (dat1 V c).owesAt () t.succ
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)
      ∗ owns (c : Thread nD τ) (st1_4 t) fullShare ((dat1 V c).after 4 t)
      ∗ owns (c : Thread nD τ) (st1_5 t) fullShare ((dat1 V c).after 5 t)
      ∗ owns (c : Thread nD τ) (st1_6 t) fullShare ((dat1 V c).after 6 t)
      ∗ owns (c : Thread nD τ) (st1_7 t) fullShare ((dat1 V c).after 7 t)
      ∗ owns (c : Thread nD τ) (st1_8 t) fullShare ((dat1 V c).after 8 t))) := by
  unfold bodyAt1
  obtain ⟨b0, b1, b2, b3, b4, b5, b6⟩ := before1_in V c t
  obtain ⟨a0, a1, a2, a3, a4, a5, a6⟩ := after1_in V c t
  simp only [b0, b1, b2, b3, b4, b5, b6]
  rw [show (dat1 V c).Φ t.succ = (dat1 V c).Φ t.castSucc from rfl,
    show (dat1 V c).owesAt () t.succ = (dat1 V c).owesAt () t.castSucc from rfl, a0, a1, a2, a3, a4, a5, a6, after1_7, after1_8]
  unfold oAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq1 V c t d8]
  unfold stepAt1
  iapply (run1 c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.K2.Run.lean ====
import proofs.«404761_j17377437680137_2_alg».proof.Proof.KI.K2.Data
import proofs.«404761_j17377437680137_2_alg».proof.Proof.LibWholeStore

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords)
  (arg1 : Memref sig .tc .vmem S10000x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S128x128 .f32) (harg5 : arg5.IsWhole)
  (arg6 : Memref sig .tc .vmem S1x128 .f32) (harg6 : arg6.IsWhole)
  (arg7 : Memref sig .tc .vmem S10000x1 .i32) (harg7 : arg7.IsWhole)
  (arg8 : Memref sig .tc .vmem S10000x128 .f32) (harg8 : arg8.IsWhole)
  (arg9 : Memref sig .tc .vmem S256x128 .f32) (harg9 : arg9.IsWhole)
  (x0 x1 : Vec F S10000x128 .f32) (x2 : Vec F S128x128 .f32) (x3 : Vec F S1x128 .f32) (x4 : Vec F S128x128 .f32)
  (x5 : Vec F S1x128 .f32) (x6 : Vec F S10000x1 .i32)

set_option maxHeartbeats 1000000 in
/-- The body leaves the inputs as they were, the tile's activations in the first output, and in the pooled output the
    step over the zero block when the condition holds, over its previous contents `d9` when it does not. -/
theorem run2 (d9 : Vec F S256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (oPay2 x0 x1 x2 x3 x4 x5)
            ∗ owns (c : Thread nD τ) arg9 fullShare (step2 x0 x1 x2 x3 x4 x5 x6 (if cond2_0 i then zero2 else d9))) -∗ K ⟨⟩))
      ⊢ wp frame (wpE (defs₀ (F := F)) Variants.none c none) E (cc2__mlp_pool_kernel i arg1 harg1 arg2 harg2 arg3 harg3 arg4 harg4 arg5 harg5 arg6 harg6 arg7 harg7 arg8 harg8 arg9 harg9) K := by
  simp only [cc2__mlp_pool_kernel_eq_skeleton]; unfold cc2__mlp_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  by_cases hc0 : cond2_0 i
  all_goals
    first | rw [if_pos hc0] | rw [if_neg hc0]
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7] <;> (iexists _; isplitr; swap; · iassumption)
    all_goals ipureintro; exact View.read_whole_store _ _ hz2 _ _ _ (by sl_unfold_words; simp only [View.readAt_eq_ld, harg1.read_unread, harg2.read_unread, harg3.read_unread, harg4.read_unread, harg5.read_unread, harg6.read_unread, harg7.read_unread, harg9.read_unread, View.ld_unit_zero (S := S10000x128) hz2, View.ld_unit_zero (S := S128x128) hz2, View.ld_unit_zero (S := S1x128) hz2, View.ld_unit_zero (S := S10000x1) hz2, View.ld_unit_zero (S := S256x128) hz2, View.readCov_unit_zero (S := S256x128) _ hz2]; rfl)

end Cert.KernelIdeal.Fr

end
-- ==== Proof.KI.K2.Body.lean ====
import proofs.«404761_j17377437680137_2_alg».proof.Proof.KI.K2.Run

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

set_option maxHeartbeats 800000 in
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d))
      ∗ (∃ d, owns (c : Thread nD τ) (st2_7 t) fullShare ((dat2 V c).before 7 t d))
      ∗ (∃ d, owns (c : Thread nD τ) (st2_8 t) fullShare ((dat2 V c).before 8 t d)))
    ⊢ wp frame (wpE (defs₀ (F := F)) Variants.none c none) Set.univ (bodyAt2 t) (fun _ =>
    iprop((dat2 V c).Φ t.succ ∗ (dat2 V c).owesAt () t.succ
      ∗ owns (c : Thread nD τ) (st2_0 t) fullShare ((dat2 V c).after 0 t)
      ∗ owns (c : Thread nD τ) (st2_1 t) fullShare ((dat2 V c).after 1 t)
      ∗ owns (c : Thread nD τ) (st2_2 t) fullShare ((dat2 V c).after 2 t)
      ∗ owns (c : Thread nD τ) (st2_3 t) fullShare ((dat2 V c).after 3 t)
      ∗ owns (c : Thread nD τ) (st2_4 t) fullShare ((dat2 V c).after 4 t)
      ∗ owns (c : Thread nD τ) (st2_5 t) fullShare ((dat2 V c).after 5 t)
      ∗ owns (c : Thread nD τ) (st2_6 t) fullShare ((dat2 V c).after 6 t)
      ∗ owns (c : Thread nD τ) (st2_7 t) fullShare ((dat2 V c).after 7 t)
      ∗ owns (c : Thread nD τ) (st2_8 t) fullShare ((dat2 V c).after 8 t))) := by
  unfold bodyAt2
  obtain ⟨b0, b1, b2, b3, b4, b5, b6⟩ := before2_in V c t
  obtain ⟨a0, a1, a2, a3, a4, a5, a6⟩ := after2_in V c t
  simp only [b0, b1, b2, b3, b4, b5, b6]
  rw [show (dat2 V c).Φ t.succ = (dat2 V c).Φ t.castSucc from rfl,
    show (dat2 V c).owesAt () t.succ = (dat2 V c).owesAt () t.castSucc from rfl, a0, a1, a2, a3, a4, a5, a6, after2_7, after2_8]
  unfold oAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [pool_eq2 V c t d8]
  unfold stepAt2
  iapply (run2 c (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) ((dat2 V c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.KI.Launch.lean ====
import proofs.«404761_j17377437680137_2_alg».proof.Proof.KI.Fold
import proofs.«404761_j17377437680137_2_alg».proof.Proof.KI.K0.Body
import proofs.«404761_j17377437680137_2_alg».proof.Proof.KI.K1.Body
import proofs.«404761_j17377437680137_2_alg».proof.Proof.KI.K2.Body
import proofs.«404761_j17377437680137_2_alg».proof.Proof.Gen.KernelIdeal.Launch
import proofs.«404761_j17377437680137_2_alg».proof.Proof.Gen.KernelIdeal.Points
import proofs.«404761_j17377437680137_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m c (Proc.devRef .tc r) = W0 m c (Proc.devRef .tc r) :=
  StableHlo.after_of_writes_sub hostOps0 _ hostOps0_writes h

theorem W3_of (c : Dev nD) (r : Ref sig .tc) (h : r ∉ hostOps1_W) : W3 m c (Proc.devRef .tc r) = W2 m c (Proc.devRef .tc r) :=
  StableHlo.after_of_writes_sub hostOps1 _ hostOps1_writes h

theorem W5_of (c : Dev nD) (r : Ref sig .tc) (h : r ∉ hostOps2_W) : W5 m c (Proc.devRef .tc r) = W4 m c (Proc.devRef .tc r) :=
  StableHlo.after_of_writes_sub hostOps2 _ hostOps2_writes h

theorem W7_of (c : Dev nD) (r : Ref sig .tc) (h : r ∉ hostOps3_W) : W7 m c (Proc.devRef .tc r) = W6 m c (Proc.devRef .tc r) :=
  StableHlo.after_of_writes_sub hostOps3 _ hostOps3_writes h

/-- A buffer no host stretch writes and no region names ends as launched. -/
theorem W7_kept (c : Dev nD) (r : Ref sig .tc)
    (h : r ∉ hostOps3_W ∧ (∀ w, Pipeline.arrRef spec2 w ≠ r) ∧ r ∉ hostOps2_W ∧ (∀ w, Pipeline.arrRef spec1 w ≠ r)
      ∧ r ∉ hostOps1_W ∧ (∀ w, Pipeline.arrRef spec0 w ≠ r) ∧ r ∉ hostOps0_W) :
    W7 m c (Proc.devRef .tc r) = m ((c : Thread nD τ).loc r) :=
  (W7_of m c r h.1).trans <| (W6_of_ne m c r h.2.1).trans <| (W5_of m c r h.2.2.1).trans <| (W4_of_ne m c r h.2.2.2.1).trans <|
    (W3_of m c r h.2.2.2.2.1).trans <| (W2_of_ne m c r h.2.2.2.2.2.1).trans (W1_of m c r h.2.2.2.2.2.2)

/-- The first argument is an input array of the first region, and an input array is left as found. -/
theorem W7_main_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <|
    (W4_of_ne m c main_arg0 (by decide)).trans <| (W3_of m c main_arg0 (by decide)).trans <| (W2_arr m c 0).trans <|
    ((dat0 (V1 m) c).arrAt_in 0 rfl _).trans (W1_of m c main_arg0 (by decide))

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A kernel region as a segment of @main, from the contents `Win` of every buffer to the contents `Wout`. -/
def regOf (p : Fin 3) (lf : Pipeline.LaunchFacts (nD := nD) (τ := τ) cfgs p) (Win Wout : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hrec : ∀ c t, (pdats m p c).recorded t = Set.univ)
    (hΦ : ∀ c i, (pdats m p c).Φ i = Pipeline.ΦA (cfgs p).spec c)
    (hA : ∀ c w, (pdats m p c).A w = Win c (Proc.devRef .tc (Pipeline.arrRef (cfgs p).spec w)))
    (hF : ∀ c w, (pdats m p c).arrAt w (cfgs p).N = Wout c (Proc.devRef .tc (Pipeline.arrRef (cfgs p).spec w)))
    (hrest : ∀ c (b : Ref sig .tc), (∀ w, Pipeline.arrRef (cfgs p).spec w ≠ b) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Win c b
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W, HO⟩; iexists W; isplitr; · ipureintro; exact fun _ _ => Or.inl (hrec c 0 ▸ trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c (Fin.last _)]
    icases HO with ⟨%W, -, HO⟩; iexists W; iexact HO

abbrev reg0 := regOf m 0 launch0 (W1 m) (W2 m) (body_obligation0 (V1 m)) (fun _ _ => rfl) (fun _ _ => rfl) (fun _ _ => rfl)
  (fun _ _ => rfl) (fun _ _ => rfl) (fun c w => (W2_arr m c w).symm) (W2_of_ne m)
abbrev reg1 := regOf m 1 launch1 (W3 m) (W4 m) (body_obligation1 (V3 m)) (fun _ _ => rfl) (fun _ _ => rfl) (fun _ _ => rfl)
  (fun _ _ => rfl) (fun _ _ => rfl) (fun c w => (W4_arr m c w).symm) (W4_of_ne m)
abbrev reg2 := regOf m 2 launch2 (W5 m) (W6 m) (body_obligation2 (V5 m)) (fun _ _ => rfl) (fun _ _ => rfl) (fun _ _ => rfl)
  (fun _ _ => rfl) (fun _ _ => rfl) (fun c w => (W6_arr m c w).symm) (W6_of_ne m)

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := by
  rewrite [main_chain c, Pipeline.Seg.run_eq_chain]
  rfl

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- A final state that reads every unscoped buffer at the last boundary's contents has the arguments as launched. -/
theorem kept (r : PUnit × MemSt nD τ sig (Elt F))
    (h : ∀ c : Dev nD, ∀ b ∈ Pipeline.ucRefs τ sig, r.2.mem (((c : Thread nD τ)).1, b) = W7 m c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c _ (mem_uc main_arg0 (by decide))).trans (W7_main_arg0 m c),
    (h c _ (mem_uc main_arg1 (by decide))).trans (W7_kept m c main_arg1 (by decide)),
    (h c _ (mem_uc main_arg2 (by decide))).trans (W7_kept m c main_arg2 (by decide)),
    (h c _ (mem_uc main_arg3 (by decide))).trans (W7_kept m c main_arg3 (by decide)),
    (h c _ (mem_uc main_arg4 (by decide))).trans (W7_kept m c main_arg4 (by decide)),
    (h c _ (mem_uc main_arg5 (by decide))).trans (W7_kept m c main_arg5 (by decide)),
    (h c _ (mem_uc main_arg6 (by decide))).trans (W7_kept m c main_arg6 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h => kept m r h) (run_all m ρ)

end Cert.KernelIdeal.Fr

end
-- ==== Proof.RefRun.lean ====
import proofs.«404761_j17377437680137_2_alg».proof.Proof.Gen.ReferenceIdeal.Run
import proofs.«404761_j17377437680137_2_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx

abbrev SA : Shape := ⟨2, ![50000, 128]⟩

abbrev SW : Shape := ⟨2, ![128, 128]⟩

abbrev SB : Shape := ⟨2, ![1, 128]⟩

abbrev SC : Shape := ⟨2, ![50000, 1]⟩

abbrev SP : Shape := ⟨2, ![256, 128]⟩

def dense (x : Fin 128 → EReal) (w : SW.Idx → EReal) (b : SB.Idx → EReal) (q : Fin 128) : EReal :=
  (∑ j : Fin 128, x j * w (ix2 j q)) + b (ix2 (0 : Fin 1) q)

def mlpRow (x : Fin 128 → EReal) (w1 : SW.Idx → EReal) (b1 : SB.Idx → EReal) (w2 : SW.Idx → EReal)
    (b2 : SB.Idx → EReal) (q : Fin 128) : EReal :=
  max (dense (fun k => max (dense x w1 b1 k) 0) w2 b2 q) 0

def mlp (h agg : SA.Idx → EReal) (w1 : SW.Idx → EReal) (b1 : SB.Idx → EReal) (w2 : SW.Idx → EReal)
    (b2 : SB.Idx → EReal) : SA.Idx → EReal := fun i =>
  mlpRow (fun j => h (ix2 (i 0 : Fin 50000) j) + agg (ix2 (i 0 : Fin 50000) j)) w1 b1 w2 b2 (i 1 : Fin 128)

def pool (bt : SC.Idx → BitVec 32) (a : SA.Idx → EReal) : SP.Idx → EReal := fun i =>
  ∑ n : Fin 50000, if bt (ix2 n (0 : Fin 1)) = BitVec.ofNat 32 (i 0 : Fin 256).val then a (ix2 n (i 1 : Fin 128)) else 0

def rowOf (v : (⟨1, ![128]⟩ : Shape).Idx → EReal) : SB.Idx → EReal := fun i => v (ix1 (i 1 : Fin 128))

def colOf (bt : (⟨1, ![50000]⟩ : Shape).Idx → BitVec 32) : SC.Idx → BitVec 32 := fun i => bt (ix1 (i 0 : Fin 50000))

end Cert.Spec

end
-- ==== Proof.KI.Val.TileOps.lean ====
import proofs.«404761_j17377437680137_2_alg».proof.Proof.Gen.KernelIdeal.Skeleton
import proofs.«404761_j17377437680137_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Algebra.BigOperators.Fin
import Mathlib.Logic.Equiv.Fin.Basic

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_scalar (a b : BitVec 32) :
    FloatOps.sitofp (F := Ideal) .f32 ((IntOp.cmpi .eq a b).setWidth 32) = if a = b then (1 : EReal) else 0 := by
  by_cases h : a = b
  · have e : IntOp.cmpi .eq a b = 1#1 := StableHlo.Predicate.cmpi_eq_iff.2 h
    rw [if_pos h, e]
    show ((((1#1 : BitVec 1).setWidth 32).toInt : ℝ) : EReal) = 1
    have e1 : ((1#1 : BitVec 1).setWidth 32).toInt = 1 := by decide
    rw [e1, Int.cast_one, EReal.coe_one]
  · have e : IntOp.cmpi .eq a b = 0#1 := eq_zero_of_ne_one (mt StableHlo.Predicate.cmpi_eq_iff.1 h)
    rw [if_neg h, e]
    show ((((0#1 : BitVec 1).setWidth 32).toInt : ℝ) : EReal) = 0
    have e0 : ((0#1 : BitVec 1).setWidth 32).toInt = 0 := by decide
    rw [e0, Int.cast_zero, EReal.coe_zero]

theorem onehot_apply (x6 : Vec Ideal S10000x1 .i32) (r : Fin 10000) (g : Fin 256) :
    (sitofp (F := Ideal) .f32 (extui 32 (cmpi .eq (broadcastTo S10000x256 (shapeCast S10000x1 x6 shapeCasts_S10000x1_S10000x1) broadcasts_S10000x1_S10000x256)
        (iota .tc S10000x256 32 [1] iota_S10000x256_d1_w32)) natLt_1_32) : FVec Ideal S10000x256 .f32) (ix2 r g)
      = if x6 (ix2 r (0 : Fin 1)) = BitVec.ofNat 32 g.val then (1 : EReal) else 0 := by
  have e1 : broadcastTo S10000x256 (shapeCast S10000x1 x6 shapeCasts_S10000x1_S10000x1) broadcasts_S10000x1_S10000x256 (ix2 r g)
      = x6 (ix2 r (0 : Fin 1)) := by
    rw [shapeCast_self]
    exact broadcastTo_a1_ab_apply x6 broadcasts_S10000x1_S10000x256 r g
  have e2 : iota .tc S10000x256 32 [1] iota_S10000x256_d1_w32 (ix2 r g) = BitVec.ofNat 32 g.val :=
    iota_single_apply .tc S10000x256 32 1 iota_S10000x256_d1_w32 (ix2 r g)
  show FloatOps.sitofp (F := Ideal) .f32 ((IntOp.cmpi .eq
      (broadcastTo S10000x256 (shapeCast S10000x1 x6 shapeCasts_S10000x1_S10000x1) broadcasts_S10000x1_S10000x256 (ix2 r g))
      (iota .tc S10000x256 32 [1] iota_S10000x256_d1_w32 (ix2 r g))).setWidth 32) = _
  rw [e1, e2]
  exact onehot_scalar _ _

theorem lhs_dense_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_dense_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dense_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dense_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem dense_matmul_apply (x : FVec Ideal S10000x128 .f32) (w : FVec Ideal S128x128 .f32) (r : Fin 10000) (q : Fin 128) :
    matmul dot_S10000x128_S128x128_S10000x128_1_0_0_1_n_n none x w (constant (F := Ideal) S10000x128 .f32 0x00000000#32) (ix2 r q)
      = ∑ j : Fin 128, x (ix2 r j) * w (ix2 j q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r q) ((ValueIdx.contrEquiv1 dot_S10000x128_S128x128_S10000x128_1_0_0_1_n_n 128 rfl rfl).symm k) = ix2 r k := funext fun a => Fin.ext (by
    match a with
    | ⟨0, _⟩ => exact lhs_dense_0 _ _
    | ⟨1, _⟩ => exact (lhs_dense_1 _ _).trans hk)
  have er : dot_S10000x128_S128x128_S10000x128_1_0_0_1_n_n.rhsIdx (ix2 r q) ((ValueIdx.contrEquiv1 dot_S10000x128_S128x128_S10000x128_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

theorem lhs_pool_0 (i : S256x128.Idx) (q : dot_S10000x256_S10000x128_S256x128_0_0_1_1_n_n.contr.Idx) :
    (dot_S10000x256_S10000x128_S256x128_0_0_1_1_n_n.lhsIdx i q 0).val = (q ⟨0, by decide⟩).val :=
  dot_S10000x256_S10000x128_S256x128_0_0_1_1_n_n.lhsIdx_val_of_single rfl i q
theorem lhs_pool_1 (i : S256x128.Idx) (q : dot_S10000x256_S10000x128_S256x128_0_0_1_1_n_n.contr.Idx) :
    (dot_S10000x256_S10000x128_S256x128_0_0_1_1_n_n.lhsIdx i q 1).val = (i 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem rhs_pool_0 (i : S256x128.Idx) (q : dot_S10000x256_S10000x128_S256x128_0_0_1_1_n_n.contr.Idx) :
    (dot_S10000x256_S10000x128_S256x128_0_0_1_1_n_n.rhsIdx i q 0).val = (q ⟨0, by decide⟩).val :=
  dot_S10000x256_S10000x128_S256x128_0_0_1_1_n_n.rhsIdx_val_of_single rfl i q
theorem rhs_pool_1 (i : S256x128.Idx) (q : dot_S10000x256_S10000x128_S256x128_0_0_1_1_n_n.contr.Idx) :
    (dot_S10000x256_S10000x128_S256x128_0_0_1_1_n_n.rhsIdx i q 1).val = (i 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

theorem pool_matmul_apply (oh : FVec Ideal S10000x256 .f32) (a : FVec Ideal S10000x128 .f32) (g : Fin 256) (q : Fin 128) :
    matmul dot_S10000x256_S10000x128_S256x128_0_0_1_1_n_n none oh a (constant (F := Ideal) S256x128 .f32 0x00000000#32) (ix2 g q)
      = ∑ r : Fin 10000, oh (ix2 r g) * a (ix2 r q) := by
  simp only [matmul]
  rw [Ideal.matmul_constant_zero_apply, ← Equiv.sum_comp (ValueIdx.contrEquiv1 dot_S10000x256_S10000x128_S256x128_0_0_1_1_n_n 10000 rfl rfl).symm]
  refine Finset.sum_congr rfl fun k _ => ?_
  have hk := ValueIdx.contrEquiv1_symm_val dot_S10000x256_S10000x128_S256x128_0_0_1_1_n_n 10000 rfl rfl k
  have el : dot_S10000x256_S10000x128_S256x128_0_0_1_1_n_n.lhsIdx (ix2 g q) ((ValueIdx.contrEquiv1 dot_S10000x256_S10000x128_S256x128_0_0_1_1_n_n 10000 rfl rfl).symm k) = ix2 k g := funext fun a => Fin.ext (by
    match a with
    | ⟨0, _⟩ => exact (lhs_pool_0 _ _).trans hk
    | ⟨1, _⟩ => exact lhs_pool_1 _ _)
  have er : dot_S10000x256_S10000x128_S256x128_0_0_1_1_n_n.rhsIdx (ix2 g q) ((ValueIdx.contrEquiv1 dot_S10000x256_S10000x128_S256x128_0_0_1_1_n_n 10000 rfl rfl).symm k) = ix2 k q := funext fun a => Fin.ext (by
    match a with
    | ⟨0, _⟩ => exact (rhs_pool_0 _ _).trans hk
    | ⟨1, _⟩ => exact rhs_pool_1 _ _)
  rw [el, er]

theorem layer_apply (x : FVec Ideal S10000x128 .f32) (w : Vec Ideal S128x128 .f32) (b : Vec Ideal S1x128 .f32)
    (r : Fin 10000) (q : Fin 128) :
    maximumf (addf (matmul dot_S10000x128_S128x128_S10000x128_1_0_0_1_n_n none x (shapeCast S128x128 w shapeCasts_S128x128_S128x128 : FVec Ideal S128x128 .f32)
          (constant (F := Ideal) S10000x128 .f32 0x00000000#32))
        (broadcastTo S10000x128 (shapeCast S1x128 b shapeCasts_S1x128_S1x128 : FVec Ideal S1x128 .f32) broadcasts_S1x128_S10000x128))
      (broadcast S10000x128 (Scalar.ofBits (F := Ideal) .f32 0x00000000#32)) (ix2 r q)
      = max (Cert.Spec.dense (fun j => x (ix2 r j)) w b q) 0 := by
  rw [shapeCast_self, shapeCast_self]
  show max (matmul dot_S10000x128_S128x128_S10000x128_1_0_0_1_n_n none x w (constant (F := Ideal) S10000x128 .f32 0x00000000#32) (ix2 r q)
      + broadcastTo S10000x128 b broadcasts_S1x128_S10000x128 (ix2 r q)) (Ideal.ofBits .f32 0x00000000#32) = _
  rw [dense_matmul_apply, Ideal.ofBits_zero_f32]
  refine congrArg (fun y => max ((∑ j : Fin 128, x (ix2 r j) * w (ix2 j q)) + y) 0) ?_
  exact broadcastTo_1b_ab_apply b broadcasts_S1x128_S10000x128 r q

/-- A sum over the 50000 rows, tile by tile. -/
theorem sum_rows {M : Type*} [AddCommMonoid M] (f : Fin 50000 → M) :
    ∑ n : Fin 50000, f n = ∑ t : Fin 5, ∑ r : Fin 10000, f ⟨10000 * t.val + r.val, by have := t.isLt; have := r.isLt; omega⟩ := by
  rw [← Fintype.sum_prod_type (f := fun p : Fin 5 × Fin 10000 => f ⟨10000 * p.1.val + p.2.val, by have := p.1.isLt; have := p.2.isLt; omega⟩)]
  refine (Fintype.sum_equiv (finProdFinEquiv : Fin 5 × Fin 10000 ≃ Fin 50000) _ _ fun p => ?_).symm
  refine congrArg f (Fin.ext ?_)
  show 10000 * p.1.val + p.2.val = p.2.val + 10000 * p.1.val
  omega

end Cert.KernelIdeal.Val

end
-- ==== Proof.KI.Val.Tile0.lean ====
import proofs.«404761_j17377437680137_2_alg».proof.Proof.KI.K0.Data
import proofs.«404761_j17377437680137_2_alg».proof.Proof.Spec
import proofs.«404761_j17377437680137_2_alg».proof.Proof.KI.Val.TileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

theorem oPay0_apply (x0 x1 : Vec Ideal S10000x128 .f32) (x2 : Vec Ideal S128x128 .f32) (x3 : Vec Ideal S1x128 .f32)
    (x4 : Vec Ideal S128x128 .f32) (x5 : Vec Ideal S1x128 .f32) (r : Fin 10000) (q : Fin 128) :
    oPay0 (F := Ideal) x0 x1 x2 x3 x4 x5 (ix2 r q)
      = Cert.Spec.mlpRow (fun j => x0 (ix2 r j) + x1 (ix2 r j)) x2 x3 x4 x5 q := by
  unfold oPay0 k0_pay3
  refine (layer_apply _ x4 x5 r q).trans ?_
  unfold Cert.Spec.mlpRow
  refine congrArg (fun f => max (Cert.Spec.dense f x4 x5 q) 0) (funext fun k => ?_)
  refine (layer_apply _ x2 x3 r k).trans ?_
  refine congrArg (fun f => max (Cert.Spec.dense f x2 x3 k) 0) (funext fun j => ?_)
  refine (addf_apply _ _ _).trans ?_
  simp only [shapeCast_self]

theorem step0_apply (x0 x1 : Vec Ideal S10000x128 .f32) (x2 : Vec Ideal S128x128 .f32) (x3 : Vec Ideal S1x128 .f32)
    (x4 : Vec Ideal S128x128 .f32) (x5 : Vec Ideal S1x128 .f32) (x6 : Vec Ideal S10000x1 .i32)
    (prev : Vec Ideal S256x128 .f32) (g : Fin 256) (q : Fin 128) :
    step0 (F := Ideal) x0 x1 x2 x3 x4 x5 x6 prev (ix2 g q)
      = prev (ix2 g q) + ∑ r : Fin 10000,
          (if x6 (ix2 r (0 : Fin 1)) = BitVec.ofNat 32 g.val then oPay0 (F := Ideal) x0 x1 x2 x3 x4 x5 (ix2 r q) else 0) := by
  unfold step0 k0_pay1
  refine (addf_apply _ _ _).trans ?_
  rw [shapeCast_self]
  refine congrArg (fun y => prev (ix2 g q) + y) ?_
  unfold k0_pay4
  refine (pool_matmul_apply _ _ g q).trans ?_
  refine Finset.sum_congr rfl fun r _ => ?_
  rw [onehot_apply x6 r g]
  show (if x6 (ix2 r (0 : Fin 1)) = BitVec.ofNat 32 g.val then (1 : EReal) else 0) * oPay0 (F := Ideal) x0 x1 x2 x3 x4 x5 (ix2 r q) = _
  rw [ite_mul, one_mul, zero_mul]

theorem zero0_apply (i : S256x128.Idx) : zero0 (F := Ideal) i = 0 := by
  unfold zero0 k0_pay2
  exact Ideal.ofBits_zero_f32

end Cert.KernelIdeal.Val

end
-- ==== Proof.KI.Val.Arr0.lean ====
import proofs.«404761_j17377437680137_2_alg».proof.Proof.KI.Val.Tile0
import proofs.«404761_j17377437680137_2_alg».proof.Proof.KI.K0.Data
import Idealize.ShloMosaic.Lib.Pipeline.Value
import Idealize.ShloMosaic.Lib.Pipeline.FrameBody

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

open Idealize.ShloMosaic.Pipeline (Dat)

variable (V : (c : Dev nD) → (b : Ref sig .tc) → Buf (Elt Ideal) ((c : Thread nD τ).loc b))

abbrev ar0_0 (c : Dev nD) : Vec Ideal S50000x128 .f32 := V c (Pipeline.arrRef spec0 0)
abbrev ar0_1 (c : Dev nD) : Vec Ideal S50000x128 .f32 := V c (Pipeline.arrRef spec0 1)
abbrev ar0_2 (c : Dev nD) : Vec Ideal S128x128 .f32 := V c (Pipeline.arrRef spec0 2)
abbrev ar0_3 (c : Dev nD) : Vec Ideal S1x128 .f32 := V c (Pipeline.arrRef spec0 3)
abbrev ar0_4 (c : Dev nD) : Vec Ideal S128x128 .f32 := V c (Pipeline.arrRef spec0 4)
abbrev ar0_5 (c : Dev nD) : Vec Ideal S1x128 .f32 := V c (Pipeline.arrRef spec0 5)
abbrev ar0_6 (c : Dev nD) : Vec Ideal S50000x1 .i32 := V c (Pipeline.arrRef spec0 6)

abbrev out0_7 (c : Dev nD) : Vec Ideal S50000x128 .f32 := (dat0 V c).arrAt 7 cfg0.N
abbrev out0_8 (c : Dev nD) : Vec Ideal S256x128 .f32 := (dat0 V c).arrAt 8 cfg0.N

theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

theorem ptLt0 (t : Fin cfg0.N) : t.val < 5 := by
  exact lt_of_lt_of_eq t.isLt N_0

def row0 (t : Fin cfg0.N) (r : Fin 10000) : Fin 50000 := ⟨10000 * t.val + r.val, by have := ptLt0 t; omega⟩

theorem blk0_0_read (G : Vec Ideal S50000x128 .f32) (t : Fin cfg0.N) (r : Fin 10000) (q : Fin 128) :
    (((cfg0.win 0).blk t).view.read (Elt Ideal) G : Vec Ideal S10000x128 .f32) (ix2 r q) = G (ix2 (row0 t r) q) := by
  obtain ⟨⟨e0, e1⟩, -, -, -, -, -, -, -, -⟩ := idx0 t
  rw [View.read_apply]
  refine congrArg G (funext fun a => ?_)
  apply Fin.ext
  match a with
  | ⟨0, _⟩ => show win0_0.index t (0 : Fin 2) * 10000 + 1 * r.val = 10000 * t.val + r.val; omega
  | ⟨1, _⟩ => show win0_0.index t (1 : Fin 2) * 128 + 1 * q.val = q.val; omega

theorem blk0_1_read (G : Vec Ideal S50000x128 .f32) (t : Fin cfg0.N) (r : Fin 10000) (q : Fin 128) :
    (((cfg0.win 1).blk t).view.read (Elt Ideal) G : Vec Ideal S10000x128 .f32) (ix2 r q) = G (ix2 (row0 t r) q) := by
  obtain ⟨-, ⟨e0, e1⟩, -, -, -, -, -, -, -⟩ := idx0 t
  rw [View.read_apply]
  refine congrArg G (funext fun a => ?_)
  apply Fin.ext
  match a with
  | ⟨0, _⟩ => show win0_1.index t (0 : Fin 2) * 10000 + 1 * r.val = 10000 * t.val + r.val; omega
  | ⟨1, _⟩ => show win0_1.index t (1 : Fin 2) * 128 + 1 * q.val = q.val; omega

theorem blk0_2_read (G : Vec Ideal S128x128 .f32) (t : Fin cfg0.N) :
    (((cfg0.win 2).blk t).view.read (Elt Ideal) G : Vec Ideal S128x128 .f32) = G := by
  obtain ⟨-, -, ⟨e0, e1⟩, -, -, -, -, -, -⟩ := idx0 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win0_2.index t (0 : Fin 2) * 128 + 1 * a.val = a.val; omega
  | ⟨1, _⟩ => show win0_2.index t (1 : Fin 2) * 128 + 1 * b.val = b.val; omega

theorem blk0_3_read (G : Vec Ideal S1x128 .f32) (t : Fin cfg0.N) :
    (((cfg0.win 3).blk t).view.read (Elt Ideal) G : Vec Ideal S1x128 .f32) = G := by
  obtain ⟨-, -, -, ⟨e0, e1⟩, -, -, -, -, -⟩ := idx0 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win0_3.index t (0 : Fin 2) * 1 + 1 * a.val = a.val; omega
  | ⟨1, _⟩ => show win0_3.index t (1 : Fin 2) * 128 + 1 * b.val = b.val; omega

theorem blk0_4_read (G : Vec Ideal S128x128 .f32) (t : Fin cfg0.N) :
    (((cfg0.win 4).blk t).view.read (Elt Ideal) G : Vec Ideal S128x128 .f32) = G := by
  obtain ⟨-, -, -, -, ⟨e0, e1⟩, -, -, -, -⟩ := idx0 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win0_4.index t (0 : Fin 2) * 128 + 1 * a.val = a.val; omega
  | ⟨1, _⟩ => show win0_4.index t (1 : Fin 2) * 128 + 1 * b.val = b.val; omega

theorem blk0_5_read (G : Vec Ideal S1x128 .f32) (t : Fin cfg0.N) :
    (((cfg0.win 5).blk t).view.read (Elt Ideal) G : Vec Ideal S1x128 .f32) = G := by
  obtain ⟨-, -, -, -, -, ⟨e0, e1⟩, -, -, -⟩ := idx0 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win0_5.index t (0 : Fin 2) * 1 + 1 * a.val = a.val; omega
  | ⟨1, _⟩ => show win0_5.index t (1 : Fin 2) * 128 + 1 * b.val = b.val; omega

theorem blk0_6_read (G : Vec Ideal S50000x1 .i32) (t : Fin cfg0.N) (r : Fin 10000) (q : Fin 1) :
    (((cfg0.win 6).blk t).view.read (Elt Ideal) G : Vec Ideal S10000x1 .i32) (ix2 r q) = G (ix2 (row0 t r) q) := by
  obtain ⟨-, -, -, -, -, -, ⟨e0, e1⟩, -, -⟩ := idx0 t
  rw [View.read_apply]
  refine congrArg G (funext fun a => ?_)
  apply Fin.ext
  match a with
  | ⟨0, _⟩ => show win0_6.index t (0 : Fin 2) * 10000 + 1 * r.val = 10000 * t.val + r.val; omega
  | ⟨1, _⟩ => show win0_6.index t (1 : Fin 2) * 1 + 1 * q.val = q.val; omega

theorem blk0_7_read (G : Vec Ideal S50000x128 .f32) (t : Fin cfg0.N) (r : Fin 10000) (q : Fin 128) :
    (((cfg0.win 7).blk t).view.read (Elt Ideal) G : Vec Ideal S10000x128 .f32) (ix2 r q) = G (ix2 (row0 t r) q) := by
  obtain ⟨-, -, -, -, -, -, -, ⟨e0, e1⟩, -⟩ := idx0 t
  rw [View.read_apply]
  refine congrArg G (funext fun a => ?_)
  apply Fin.ext
  match a with
  | ⟨0, _⟩ => show win0_7.index t (0 : Fin 2) * 10000 + 1 * r.val = 10000 * t.val + r.val; omega
  | ⟨1, _⟩ => show win0_7.index t (1 : Fin 2) * 128 + 1 * q.val = q.val; omega

theorem blk0_8_read (G : Vec Ideal S256x128 .f32) (t : Fin cfg0.N) :
    (((cfg0.win 8).blk t).view.read (Elt Ideal) G : Vec Ideal S256x128 .f32) = G := by
  obtain ⟨-, -, -, -, -, -, -, -, ⟨e0, e1⟩⟩ := idx0 t
  funext j
  obtain ⟨a, b, rfl⟩ : ∃ (a : Fin 256) (b : Fin 128), j = ix2 a b := ⟨j 0, j 1, eq_ix2 j⟩
  rw [View.read_apply]
  refine congrArg G (funext fun d => ?_)
  apply Fin.ext
  match d with
  | ⟨0, _⟩ => show win0_8.index t (0 : Fin 2) * 256 + 1 * a.val = a.val; omega
  | ⟨1, _⟩ => show win0_8.index t (1 : Fin 2) * 128 + 1 * b.val = b.val; omega

theorem oAt0_apply (c : Dev nD) (t : Fin cfg0.N) (r : Fin 10000) (q : Fin 128) :
    oAt0 V c t (ix2 r q)
      = Cert.Spec.mlp (ar0_0 V c) (ar0_1 V c) (ar0_2 V c) (ar0_3 V c) (ar0_4 V c) (ar0_5 V c) (ix2 (row0 t r) q) := by
  unfold oAt0
  rw [oPay0_apply]
  have h2 : xb0_2 V c t = ar0_2 V c := blk0_2_read (ar0_2 V c) t
  have h3 : xb0_3 V c t = ar0_3 V c := blk0_3_read (ar0_3 V c) t
  have h4 : xb0_4 V c t = ar0_4 V c := blk0_4_read (ar0_4 V c) t
  have h5 : xb0_5 V c t = ar0_5 V c := blk0_5_read (ar0_5 V c) t
  have h01 : (fun j : Fin 128 => xb0_0 V c t (ix2 r j) + xb0_1 V c t (ix2 r j))
      = fun j : Fin 128 => ar0_0 V c (ix2 (row0 t r) j) + ar0_1 V c (ix2 (row0 t r) j) :=
    funext fun j => congrArg₂ (· + ·) (blk0_0_read (ar0_0 V c) t r j) (blk0_1_read (ar0_1 V c) t r j)
  rw [h2, h3, h4, h5, h01]
  rfl

abbrev G0_7 (c : Dev nD) : Vec Ideal S50000x128 .f32 :=
  Cert.Spec.mlp (ar0_0 V c) (ar0_1 V c) (ar0_2 V c) (ar0_3 V c) (ar0_4 V c) (ar0_5 V c)

theorem flushed0_7_eq (c : Dev nD) (t : Fin cfg0.N) :
    (dat0 V c).flushed 7 t = ((cfg0.win 7).blk t).view.read (Elt Ideal) (G0_7 V c) := by
  show (cfg0.win 7).cut (grid0.coords t) ((dat0 V c).after 7 t) = _
  rw [after0_7]
  funext j
  obtain ⟨r, q, rfl⟩ : ∃ (r : Fin 10000) (q : Fin 128), j = ix2 r q := ⟨j 0, j 1, eq_ix2 j⟩
  exact (oAt0_apply V c t r q).trans (blk0_7_read (G0_7 V c) t r q).symm

theorem mem_blk0_7 (t : Fin cfg0.N) (i : S50000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole (Pipeline.arrRef spec0 7)).slice (win0_7.rect t)).set ↔ _
  rw [View.set_slice_whole, Rect.mem_set_unit]
  exact Iff.rfl

theorem cover0_7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 10000, lt_of_lt_of_eq (by omega) N_0.symm⟩
  obtain ⟨-, -, -, -, -, -, -, ⟨e0, e1⟩, -⟩ := idx0 t
  have ht : t.val = (i 0).val / 10000 := rfl
  refine ⟨t, flush0_7 t, ?_⟩
  rw [mem_blk0_7]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 128 ≤ (i 1).val ∧ (i 1).val < win0_7.index t (1 : Fin 2) * 128 + 128; omega

theorem arr0_7 (c : Dev nD) :
    out0_7 V c = Cert.Spec.mlp (ar0_0 V c) (ar0_1 V c) (ar0_2 V c) (ar0_3 V c) (ar0_4 V c) (ar0_5 V c) :=
  (dat0 V c).arrAt_eq_of_cover 7 (G0_7 V c) (fun t _ => flushed0_7_eq V c t) cover0_7

theorem isIn0 : ∀ w : Fin cfg0.W, w.val < 7 → (cfg0.win w).isOut = false :=
  (by decide +kernel : ∀ w : Fin 9, w.val < 7 → (win0 w).isOut = false)

theorem arr0_in (c : Dev nD) (w : Fin cfg0.W) (hw : w.val < 7) : (dat0 V c).arrAt w cfg0.N = V c (Pipeline.arrRef spec0 w) :=
  ((dat0 V c).arrAt_in w (isIn0 w hw) _).trans (A_eq0 V c w)

def tile0 (c : Dev nD) (g : Fin 256) (q : Fin 128) (t : ℕ) : EReal :=
  if h : t < cfg0.N then
    ∑ r : Fin 10000, (if ar0_6 V c (ix2 (row0 ⟨t, h⟩ r) (0 : Fin 1)) = BitVec.ofNat 32 g.val
      then G0_7 V c (ix2 (row0 ⟨t, h⟩ r) q) else 0)
  else 0

theorem step0_at (c : Dev nD) (t : Fin cfg0.N) (prev : Vec Ideal S256x128 .f32) (g : Fin 256) (q : Fin 128) :
    step0 (xb0_0 V c t) (xb0_1 V c t) (xb0_2 V c t) (xb0_3 V c t) (xb0_4 V c t) (xb0_5 V c t) (xb0_6 V c t) prev (ix2 g q)
      = prev (ix2 g q) + tile0 V c g q t.val := by
  rw [step0_apply]
  unfold tile0
  rw [dif_pos t.isLt]
  refine congrArg (prev (ix2 g q) + ·) (Finset.sum_congr rfl fun r _ => ?_)
  have h6 : xb0_6 V c t (ix2 r (0 : Fin 1)) = ar0_6 V c (ix2 (row0 t r) (0 : Fin 1)) := blk0_6_read (ar0_6 V c) t r 0
  have h7 : oPay0 (xb0_0 V c t) (xb0_1 V c t) (xb0_2 V c t) (xb0_3 V c t) (xb0_4 V c t) (xb0_5 V c t) (ix2 r q)
      = G0_7 V c (ix2 (row0 t r) q) := oAt0_apply V c t r q
  rw [h6, h7]

theorem pool0_upto (c : Dev nD) (g : Fin 256) (q : Fin 128) : ∀ (n : ℕ) (hn : n < cfg0.N),
    poolAt0 V c n hn (ix2 g q) = ∑ t ∈ Finset.range (n + 1), tile0 V c g q t
  | 0, hn => by
    rw [Finset.sum_range_one]
    refine (step0_at V c ⟨0, hn⟩ (zero0 (F := Ideal)) g q).trans ?_
    rw [zero0_apply, zero_add]
  | n + 1, hn => by
    rw [Finset.sum_range_succ, ← pool0_upto c g q n (Nat.lt_of_succ_lt hn)]
    exact step0_at V c ⟨n + 1, hn⟩ _ g q

abbrev G0_8 (c : Dev nD) : Vec Ideal S256x128 .f32 := Cert.Spec.pool (ar0_6 V c) (G0_7 V c)

theorem pool0_last (c : Dev nD) (h4 : 4 < cfg0.N) : poolAt0 V c 4 h4 = G0_8 V c := by
  funext j
  obtain ⟨g, q, rfl⟩ : ∃ (g : Fin 256) (q : Fin 128), j = ix2 g q := ⟨j 0, j 1, eq_ix2 j⟩
  rw [pool0_upto]
  show _ = ∑ n : Fin 50000, (fun n : Fin 50000 => if ar0_6 V c (ix2 n (0 : Fin 1)) = BitVec.ofNat 32 g.val then G0_7 V c (ix2 n q) else 0) n
  rw [sum_rows, ← Fin.sum_univ_eq_sum_range]
  refine Finset.sum_congr rfl fun t _ => ?_
  unfold tile0
  rw [dif_pos (lt_of_lt_of_eq t.isLt N_0.symm)]
  rfl

theorem poolAt0_congr (c : Dev nD) {n m : ℕ} (hn : n < cfg0.N) (hm : m < cfg0.N) (e : n = m) :
    poolAt0 V c n hn = poolAt0 V c m hm := by
  subst e; rfl

theorem flushed0_8_eq (c : Dev nD) (t : Fin cfg0.N) (hf : (cfg0.win 8).flush t = true) :
    (dat0 V c).flushed 8 t = ((cfg0.win 8).blk t).view.read (Elt Ideal) (G0_8 V c) := by
  have h4 : t.val = 4 := by have := (flush0_8 t).mp hf; have := ptLt0 t; omega
  show (cfg0.win 8).cut (grid0.coords t) ((dat0 V c).after 8 t) = _
  rw [after0_8, blk0_8_read (G0_8 V c) t, poolAt0_congr V c t.isLt (lt_of_lt_of_eq (by omega) N_0.symm) h4, pool0_last]
  rfl

theorem mem_blk0_8 (t : Fin cfg0.N) (i : S256x128.Idx) :
    i ∈ ((cfg0.win 8).blk t).view.set ↔ ∀ a : Fin 2, win0_8.index t a * S256x128.size a ≤ (i a).val ∧ (i a).val < win0_8.index t a * S256x128.size a + S256x128.size a := by
  show i ∈ ((View.whole (Pipeline.arrRef spec0 8)).slice (win0_8.rect t)).set ↔ _
  rw [View.set_slice_whole, Rect.mem_set_unit]
  exact Iff.rfl

theorem cover0_8 (i : S256x128.Idx) :
    ∃ t : Fin cfg0.N, (cfg0.win 8).flush t = true ∧ i ∈ ((cfg0.win 8).blk t).view.set := by
  have hi0 : (i 0).val < 256 := (i 0).isLt
  have hi1 : (i 1).val < 128 := (i 1).isLt
  let t : Fin cfg0.N := ⟨4, lt_of_lt_of_eq (by omega) N_0.symm⟩
  obtain ⟨-, -, -, -, -, -, -, -, ⟨e0, e1⟩⟩ := idx0 t
  refine ⟨t, (flush0_8 t).mpr rfl, ?_⟩
  rw [mem_blk0_8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 128 ≤ (i 1).val ∧ (i 1).val < win0_8.index t (1 : Fin 2) * 128 + 128; omega

theorem arr0_8 (c : Dev nD) :
    out0_8 V c = Cert.Spec.pool (ar0_6 V c)
      (Cert.Spec.mlp (ar0_0 V c) (ar0_1 V c) (ar0_2 V c) (ar0_3 V c) (ar0_4 V c) (ar0_5 V c)) :=
  (dat0 V c).arrAt_eq_of_cover 8 (G0_8 V c) (flushed0_8_eq V c) cover0_8

end Cert.KernelIdeal.Val

end
-- ==== Proof.KI.Val.Tile1.lean ====
import proofs.«404761_j17377437680137_2_alg».proof.Proof.KI.K1.Data
import proofs.«404761_j17377437680137_2_alg».proof.Proof.Spec
import proofs.«404761_j17377437680137_2_alg».proof.Proof.KI.Val.TileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

theorem oPay1_apply (x0 x1 : Vec Ideal S10000x128 .f32) (x2 : Vec Ideal S128x128 .f32) (x3 : Vec Ideal S1x128 .f32)
    (x4 : Vec Ideal S128x128 .f32) (x5 : Vec Ideal S1x128 .f32) (r : Fin 10000) (q : Fin 128) :
    oPay1 (F := Ideal) x0 x1 x2 x3 x4 x5 (ix2 r q)
      = Cert.Spec.mlpRow (fun j => x0 (ix2 r j) + x1 (ix2 r j)) x2 x3 x4 x5 q := by
  unfold oPay1 k1_pay3
  refine (layer_apply _ x4 x5 r q).trans ?_
  unfold Cert.Spec.mlpRow
  refine congrArg (fun f => max (Cert.Spec.dense f x4 x5 q) 0) (funext fun k => ?_)
  refine (layer_apply _ x2 x3 r k).trans ?_
  refine congrArg (fun f => max (Cert.Spec.dense f x2 x3 k) 0) (funext fun j => ?_)
  refine (addf_apply _ _ _).trans ?_
  simp only [shapeCast_self]

theorem step1_apply (x0 x1 : Vec Ideal S10000x128 .f32) (x2 : Vec Ideal S128x128 .f32) (x3 : Vec Ideal S1x128 .f32)
    (x4 : Vec Ideal S128x128 .f32) (x5 : Vec Ideal S1x128 .f32) (x6 : Vec Ideal S10000x1 .i32)
    (prev : Vec Ideal S256x128 .f32) (g : Fin 256) (q : Fin 128) :
    step1 (F := Ideal) x0 x1 x2 x3 x4 x5 x6 prev (ix2 g q)
      = prev (ix2 g q) + ∑ r : Fin 10000,
          (if x6 (ix2 r (0 : Fin 1)) = BitVec.ofNat 32 g.val then oPay1 (F := Ideal) x0 x1 x2 x3 x4 x5 (ix2 r q) else 0) := by
  unfold step1 k1_pay1
  refine (addf_apply _ _ _).trans ?_
  rw [shapeCast_self]
  refine congrArg (fun y => prev (ix2 g q) + y) ?_
  refine (pool_matmul_apply _ _ g q).trans ?_
  refine Finset.sum_congr rfl fun r _ => ?_
  unfold k1_pay4
  rw [onehot_apply x6 r g]
  show (if x6 (ix2 r (0 : Fin 1)) = BitVec.ofNat 32 g.val then (1 : EReal) else 0) * oPay1 (F := Ideal) x0 x1 x2 x3 x4 x5 (ix2 r q) = _
  rw [ite_mul, one_mul, zero_mul]

theorem zero1_apply (i : S256x128.Idx) : zero1 (F := Ideal) i = 0 := by
  unfold zero1 k1_pay2
  exact Ideal.ofBits_zero_f32

end Cert.KernelIdeal.Val

end
-- ==== Proof.KI.Val.Arr1.lean ====
import proofs.«404761_j17377437680137_2_alg».proof.Proof.KI.Val.Tile1
import proofs.«404761_j17377437680137_2_alg».proof.Proof.KI.K1.Data
import Idealize.ShloMosaic.Lib.Pipeline.Value
import Idealize.ShloMosaic.Lib.Pipeline.FrameBody

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

open Idealize.ShloMosaic.Pipeline (Dat)

variable (V : (c : Dev nD) → (b : Ref sig .tc) → Buf (Elt Ideal) ((c : Thread nD τ).loc b))

abbrev ar1_0 (c : Dev nD) : Vec Ideal S50000x128 .f32 := V c (Pipeline.arrRef spec1 0)
abbrev ar1_1 (c : Dev nD) : Vec Ideal S50000x128 .f32 := V c (Pipeline.arrRef spec1 1)
abbrev ar1_2 (c : Dev nD) : Vec Ideal S128x128 .f32 := V c (Pipeline.arrRef spec1 2)
abbrev ar1_3 (c : Dev nD) : Vec Ideal S1x128 .f32 := V c (Pipeline.arrRef spec1 3)
abbrev ar1_4 (c : Dev nD) : Vec Ideal S128x128 .f32 := V c (Pipeline.arrRef spec1 4)
abbrev ar1_5 (c : Dev nD) : Vec Ideal S1x128 .f32 := V c (Pipeline.arrRef spec1 5)
abbrev ar1_6 (c : Dev nD) : Vec Ideal S50000x1 .i32 := V c (Pipeline.arrRef spec1 6)

abbrev out1_7 (c : Dev nD) : Vec Ideal S50000x128 .f32 := (dat1 V c).arrAt 7 cfg1.N
abbrev out1_8 (c : Dev nD) : Vec Ideal S256x128 .f32 := (dat1 V c).arrAt 8 cfg1.N

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0) :=
  (by decide +kernel : ∀ t : Fin grid1.N, _)

theorem ptLt1 (t : Fin cfg1.N) : t.val < 5 := by
  exact lt_of_lt_of_eq t.isLt N_1

def row1 (t : Fin cfg1.N) (r : Fin 10000) : Fin 50000 := ⟨10000 * t.val + r.val, by have := ptLt1 t; omega⟩

theorem blk1_0_read (G : Vec Ideal S50000x128 .f32) (t : Fin cfg1.N) (r : Fin 10000) (q : Fin 128) :
    (((cfg1.win 0).blk t).view.read (Elt Ideal) G : Vec Ideal S10000x128 .f32) (ix2 r q) = G (ix2 (row1 t r) q) := by
  obtain ⟨⟨e0, e1⟩, -, -, -, -, -, -, -, -⟩ := idx1 t
  rw [View.read_apply]
  refine congrArg G (funext fun a => ?_)
  apply Fin.ext
  match a with
  | ⟨0, _⟩ => show win1_0.index t (0 : Fin 2) * 10000 + 1 * r.val = 10000 * t.val + r.val; omega
  | ⟨1, _⟩ => show win1_0.index t (1 : Fin 2) * 128 + 1 * q.val = q.val; omega

theorem blk1_1_read (G : Vec Ideal S50000x128 .f32) (t : Fin cfg1.N) (r : Fin 10000) (q : Fin 128) :
    (((cfg1.win 1).blk t).view.read (Elt Ideal) G : Vec Ideal S10000x128 .f32) (ix2 r q) = G (ix2 (row1 t r) q) := by
  obtain ⟨-, ⟨e0, e1⟩, -, -, -, -, -, -, -⟩ := idx1 t
  rw [View.read_apply]
  refine congrArg G (funext fun a => ?_)
  apply Fin.ext
  match a with
  | ⟨0, _⟩ => show win1_1.index t (0 : Fin 2) * 10000 + 1 * r.val = 10000 * t.val + r.val; omega
  | ⟨1, _⟩ => show win1_1.index t (1 : Fin 2) * 128 + 1 * q.val = q.val; omega

theorem blk1_2_read (G : Vec Ideal S128x128 .f32) (t : Fin cfg1.N) :
    (((cfg1.win 2).blk t).view.read (Elt Ideal) G : Vec Ideal S128x128 .f32) = G := by
  obtain ⟨-, -, ⟨e0, e1⟩, -, -, -, -, -, -⟩ := idx1 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win1_2.index t (0 : Fin 2) * 128 + 1 * a.val = a.val; omega
  | ⟨1, _⟩ => show win1_2.index t (1 : Fin 2) * 128 + 1 * b.val = b.val; omega

theorem blk1_3_read (G : Vec Ideal S1x128 .f32) (t : Fin cfg1.N) :
    (((cfg1.win 3).blk t).view.read (Elt Ideal) G : Vec Ideal S1x128 .f32) = G := by
  obtain ⟨-, -, -, ⟨e0, e1⟩, -, -, -, -, -⟩ := idx1 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win1_3.index t (0 : Fin 2) * 1 + 1 * a.val = a.val; omega
  | ⟨1, _⟩ => show win1_3.index t (1 : Fin 2) * 128 + 1 * b.val = b.val; omega

theorem blk1_4_read (G : Vec Ideal S128x128 .f32) (t : Fin cfg1.N) :
    (((cfg1.win 4).blk t).view.read (Elt Ideal) G : Vec Ideal S128x128 .f32) = G := by
  obtain ⟨-, -, -, -, ⟨e0, e1⟩, -, -, -, -⟩ := idx1 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win1_4.index t (0 : Fin 2) * 128 + 1 * a.val = a.val; omega
  | ⟨1, _⟩ => show win1_4.index t (1 : Fin 2) * 128 + 1 * b.val = b.val; omega

theorem blk1_5_read (G : Vec Ideal S1x128 .f32) (t : Fin cfg1.N) :
    (((cfg1.win 5).blk t).view.read (Elt Ideal) G : Vec Ideal S1x128 .f32) = G := by
  obtain ⟨-, -, -, -, -, ⟨e0, e1⟩, -, -, -⟩ := idx1 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win1_5.index t (0 : Fin 2) * 1 + 1 * a.val = a.val; omega
  | ⟨1, _⟩ => show win1_5.index t (1 : Fin 2) * 128 + 1 * b.val = b.val; omega

theorem blk1_6_read (G : Vec Ideal S50000x1 .i32) (t : Fin cfg1.N) (r : Fin 10000) (q : Fin 1) :
    (((cfg1.win 6).blk t).view.read (Elt Ideal) G : Vec Ideal S10000x1 .i32) (ix2 r q) = G (ix2 (row1 t r) q) := by
  obtain ⟨-, -, -, -, -, -, ⟨e0, e1⟩, -, -⟩ := idx1 t
  rw [View.read_apply]
  refine congrArg G (funext fun a => ?_)
  apply Fin.ext
  match a with
  | ⟨0, _⟩ => show win1_6.index t (0 : Fin 2) * 10000 + 1 * r.val = 10000 * t.val + r.val; omega
  | ⟨1, _⟩ => show win1_6.index t (1 : Fin 2) * 1 + 1 * q.val = q.val; omega

theorem blk1_7_read (G : Vec Ideal S50000x128 .f32) (t : Fin cfg1.N) (r : Fin 10000) (q : Fin 128) :
    (((cfg1.win 7).blk t).view.read (Elt Ideal) G : Vec Ideal S10000x128 .f32) (ix2 r q) = G (ix2 (row1 t r) q) := by
  obtain ⟨-, -, -, -, -, -, -, ⟨e0, e1⟩, -⟩ := idx1 t
  rw [View.read_apply]
  refine congrArg G (funext fun a => ?_)
  apply Fin.ext
  match a with
  | ⟨0, _⟩ => show win1_7.index t (0 : Fin 2) * 10000 + 1 * r.val = 10000 * t.val + r.val; omega
  | ⟨1, _⟩ => show win1_7.index t (1 : Fin 2) * 128 + 1 * q.val = q.val; omega

theorem blk1_8_read (G : Vec Ideal S256x128 .f32) (t : Fin cfg1.N) :
    (((cfg1.win 8).blk t).view.read (Elt Ideal) G : Vec Ideal S256x128 .f32) = G := by
  obtain ⟨-, -, -, -, -, -, -, -, ⟨e0, e1⟩⟩ := idx1 t
  funext j
  obtain ⟨a, b, rfl⟩ : ∃ (a : Fin 256) (b : Fin 128), j = ix2 a b := ⟨j 0, j 1, eq_ix2 j⟩
  rw [View.read_apply]
  refine congrArg G (funext fun d => ?_)
  apply Fin.ext
  match d with
  | ⟨0, _⟩ => show win1_8.index t (0 : Fin 2) * 256 + 1 * a.val = a.val; omega
  | ⟨1, _⟩ => show win1_8.index t (1 : Fin 2) * 128 + 1 * b.val = b.val; omega

theorem oAt1_apply (c : Dev nD) (t : Fin cfg1.N) (r : Fin 10000) (q : Fin 128) :
    oAt1 V c t (ix2 r q)
      = Cert.Spec.mlp (ar1_0 V c) (ar1_1 V c) (ar1_2 V c) (ar1_3 V c) (ar1_4 V c) (ar1_5 V c) (ix2 (row1 t r) q) := by
  unfold oAt1
  rw [oPay1_apply]
  have h2 : xb1_2 V c t = ar1_2 V c := blk1_2_read (ar1_2 V c) t
  have h3 : xb1_3 V c t = ar1_3 V c := blk1_3_read (ar1_3 V c) t
  have h4 : xb1_4 V c t = ar1_4 V c := blk1_4_read (ar1_4 V c) t
  have h5 : xb1_5 V c t = ar1_5 V c := blk1_5_read (ar1_5 V c) t
  have h01 : (fun j : Fin 128 => xb1_0 V c t (ix2 r j) + xb1_1 V c t (ix2 r j))
      = fun j : Fin 128 => ar1_0 V c (ix2 (row1 t r) j) + ar1_1 V c (ix2 (row1 t r) j) :=
    funext fun j => congrArg₂ (· + ·) (blk1_0_read (ar1_0 V c) t r j) (blk1_1_read (ar1_1 V c) t r j)
  rw [h2, h3, h4, h5, h01]
  rfl

abbrev G1_7 (c : Dev nD) : Vec Ideal S50000x128 .f32 :=
  Cert.Spec.mlp (ar1_0 V c) (ar1_1 V c) (ar1_2 V c) (ar1_3 V c) (ar1_4 V c) (ar1_5 V c)

theorem flushed1_7_eq (c : Dev nD) (t : Fin cfg1.N) :
    (dat1 V c).flushed 7 t = ((cfg1.win 7).blk t).view.read (Elt Ideal) (G1_7 V c) := by
  show (cfg1.win 7).cut (grid1.coords t) ((dat1 V c).after 7 t) = _
  rw [after1_7]
  funext j
  obtain ⟨r, q, rfl⟩ : ∃ (r : Fin 10000) (q : Fin 128), j = ix2 r q := ⟨j 0, j 1, eq_ix2 j⟩
  exact (oAt1_apply V c t r q).trans (blk1_7_read (G1_7 V c) t r q).symm

theorem mem_blk1_7 (t : Fin cfg1.N) (i : S50000x128.Idx) :
    i ∈ ((cfg1.win 7).blk t).view.set ↔ ∀ a : Fin 2, win1_7.index t a * S10000x128.size a ≤ (i a).val ∧ (i a).val < win1_7.index t a * S10000x128.size a + S10000x128.size a := by
  show i ∈ ((View.whole (Pipeline.arrRef spec1 7)).slice (win1_7.rect t)).set ↔ _
  rw [View.set_slice_whole, Rect.mem_set_unit]
  exact Iff.rfl

theorem cover1_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  let t : Fin cfg1.N := ⟨(i 0).val / 10000, lt_of_lt_of_eq (by omega) N_1.symm⟩
  obtain ⟨-, -, -, -, -, -, -, ⟨e0, e1⟩, -⟩ := idx1 t
  have ht : t.val = (i 0).val / 10000 := rfl
  refine ⟨t, flush1_7 t, ?_⟩
  rw [mem_blk1_7]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 128 ≤ (i 1).val ∧ (i 1).val < win1_7.index t (1 : Fin 2) * 128 + 128; omega

theorem arr1_7 (c : Dev nD) :
    out1_7 V c = Cert.Spec.mlp (ar1_0 V c) (ar1_1 V c) (ar1_2 V c) (ar1_3 V c) (ar1_4 V c) (ar1_5 V c) :=
  (dat1 V c).arrAt_eq_of_cover 7 (G1_7 V c) (fun t _ => flushed1_7_eq V c t) cover1_7

theorem isIn1 : ∀ w : Fin cfg1.W, w.val < 7 → (cfg1.win w).isOut = false :=
  (by decide +kernel : ∀ w : Fin 9, w.val < 7 → (win1 w).isOut = false)

theorem arr1_in (c : Dev nD) (w : Fin cfg1.W) (hw : w.val < 7) : (dat1 V c).arrAt w cfg1.N = V c (Pipeline.arrRef spec1 w) :=
  ((dat1 V c).arrAt_in w (isIn1 w hw) _).trans (A_eq1 V c w)

def tile1 (c : Dev nD) (g : Fin 256) (q : Fin 128) (t : ℕ) : EReal :=
  if h : t < cfg1.N then
    ∑ r : Fin 10000, (if ar1_6 V c (ix2 (row1 ⟨t, h⟩ r) (0 : Fin 1)) = BitVec.ofNat 32 g.val
      then G1_7 V c (ix2 (row1 ⟨t, h⟩ r) q) else 0)
  else 0

theorem step1_at (c : Dev nD) (t : Fin cfg1.N) (prev : Vec Ideal S256x128 .f32) (g : Fin 256) (q : Fin 128) :
    step1 (xb1_0 V c t) (xb1_1 V c t) (xb1_2 V c t) (xb1_3 V c t) (xb1_4 V c t) (xb1_5 V c t) (xb1_6 V c t) prev (ix2 g q)
      = prev (ix2 g q) + tile1 V c g q t.val := by
  rw [step1_apply]
  unfold tile1
  rw [dif_pos t.isLt]
  refine congrArg (prev (ix2 g q) + ·) (Finset.sum_congr rfl fun r _ => ?_)
  have h6 : xb1_6 V c t (ix2 r (0 : Fin 1)) = ar1_6 V c (ix2 (row1 t r) (0 : Fin 1)) := blk1_6_read (ar1_6 V c) t r 0
  have h7 : oPay1 (xb1_0 V c t) (xb1_1 V c t) (xb1_2 V c t) (xb1_3 V c t) (xb1_4 V c t) (xb1_5 V c t) (ix2 r q)
      = G1_7 V c (ix2 (row1 t r) q) := oAt1_apply V c t r q
  rw [h6, h7]

theorem pool1_upto (c : Dev nD) (g : Fin 256) (q : Fin 128) : ∀ (n : ℕ) (hn : n < cfg1.N),
    poolAt1 V c n hn (ix2 g q) = ∑ t ∈ Finset.range (n + 1), tile1 V c g q t
  | 0, hn => by
    rw [Finset.sum_range_one]
    refine (step1_at V c ⟨0, hn⟩ (zero1 (F := Ideal)) g q).trans ?_
    rw [zero1_apply, zero_add]
  | n + 1, hn => by
    rw [Finset.sum_range_succ, ← pool1_upto c g q n (Nat.lt_of_succ_lt hn)]
    exact step1_at V c ⟨n + 1, hn⟩ _ g q

abbrev G1_8 (c : Dev nD) : Vec Ideal S256x128 .f32 := Cert.Spec.pool (ar1_6 V c) (G1_7 V c)

theorem pool1_last (c : Dev nD) (h4 : 4 < cfg1.N) : poolAt1 V c 4 h4 = G1_8 V c := by
  funext j
  obtain ⟨g, q, rfl⟩ : ∃ (g : Fin 256) (q : Fin 128), j = ix2 g q := ⟨j 0, j 1, eq_ix2 j⟩
  rw [pool1_upto]
  show _ = ∑ n : Fin 50000, (fun n : Fin 50000 => if ar1_6 V c (ix2 n (0 : Fin 1)) = BitVec.ofNat 32 g.val then G1_7 V c (ix2 n q) else 0) n
  rw [sum_rows, ← Fin.sum_univ_eq_sum_range]
  refine Finset.sum_congr rfl fun t _ => ?_
  unfold tile1
  rw [dif_pos (lt_of_lt_of_eq t.isLt N_1.symm)]
  rfl

theorem poolAt1_congr (c : Dev nD) {n m : ℕ} (hn : n < cfg1.N) (hm : m < cfg1.N) (e : n = m) :
    poolAt1 V c n hn = poolAt1 V c m hm := by
  subst e; rfl

theorem flushed1_8_eq (c : Dev nD) (t : Fin cfg1.N) (hf : (cfg1.win 8).flush t = true) :
    (dat1 V c).flushed 8 t = ((cfg1.win 8).blk t).view.read (Elt Ideal) (G1_8 V c) := by
  have h4 : t.val = 4 := by have := (flush1_8 t).mp hf; have := ptLt1 t; omega
  show (cfg1.win 8).cut (grid1.coords t) ((dat1 V c).after 8 t) = _
  rw [after1_8, blk1_8_read (G1_8 V c) t, poolAt1_congr V c t.isLt (lt_of_lt_of_eq (by omega) N_1.symm) h4, pool1_last]
  rfl

theorem mem_blk1_8 (t : Fin cfg1.N) (i : S256x128.Idx) :
    i ∈ ((cfg1.win 8).blk t).view.set ↔ ∀ a : Fin 2, win1_8.index t a * S256x128.size a ≤ (i a).val ∧ (i a).val < win1_8.index t a * S256x128.size a + S256x128.size a := by
  show i ∈ ((View.whole (Pipeline.arrRef spec1 8)).slice (win1_8.rect t)).set ↔ _
  rw [View.set_slice_whole, Rect.mem_set_unit]
  exact Iff.rfl

theorem cover1_8 (i : S256x128.Idx) :
    ∃ t : Fin cfg1.N, (cfg1.win 8).flush t = true ∧ i ∈ ((cfg1.win 8).blk t).view.set := by
  have hi0 : (i 0).val < 256 := (i 0).isLt
  have hi1 : (i 1).val < 128 := (i 1).isLt
  let t : Fin cfg1.N := ⟨4, lt_of_lt_of_eq (by omega) N_1.symm⟩
  obtain ⟨-, -, -, -, -, -, -, -, ⟨e0, e1⟩⟩ := idx1 t
  refine ⟨t, (flush1_8 t).mpr rfl, ?_⟩
  rw [mem_blk1_8]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 128 ≤ (i 1).val ∧ (i 1).val < win1_8.index t (1 : Fin 2) * 128 + 128; omega

theorem arr1_8 (c : Dev nD) :
    out1_8 V c = Cert.Spec.pool (ar1_6 V c)
      (Cert.Spec.mlp (ar1_0 V c) (ar1_1 V c) (ar1_2 V c) (ar1_3 V c) (ar1_4 V c) (ar1_5 V c)) :=
  (dat1 V c).arrAt_eq_of_cover 8 (G1_8 V c) (flushed1_8_eq V c) cover1_8

end Cert.KernelIdeal.Val

end
-- ==== Proof.KI.Val.Tile2.lean ====
import proofs.«404761_j17377437680137_2_alg».proof.Proof.KI.K2.Data
import proofs.«404761_j17377437680137_2_alg».proof.Proof.Spec
import proofs.«404761_j17377437680137_2_alg».proof.Proof.KI.Val.TileOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

theorem oPay2_apply (x0 x1 : Vec Ideal S10000x128 .f32) (x2 : Vec Ideal S128x128 .f32) (x3 : Vec Ideal S1x128 .f32)
    (x4 : Vec Ideal S128x128 .f32) (x5 : Vec Ideal S1x128 .f32) (r : Fin 10000) (q : Fin 128) :
    oPay2 (F := Ideal) x0 x1 x2 x3 x4 x5 (ix2 r q)
      = Cert.Spec.mlpRow (fun j => x0 (ix2 r j) + x1 (ix2 r j)) x2 x3 x4 x5 q := by
  unfold oPay2 k2_pay3
  refine (layer_apply _ x4 x5 r q).trans ?_
  unfold Cert.Spec.mlpRow
  refine congrArg (fun f => max (Cert.Spec.dense f x4 x5 q) 0) (funext fun k => ?_)
  refine (layer_apply _ x2 x3 r k).trans ?_
  refine congrArg (fun f => max (Cert.Spec.dense f x2 x3 k) 0) (funext fun j => ?_)
  refine (addf_apply _ _ _).trans ?_
  simp only [shapeCast_self]

theorem step2_apply (x0 x1 : Vec Ideal S10000x128 .f32) (x2 : Vec Ideal S128x128 .f32) (x3 : Vec Ideal S1x128 .f32)
    (x4 : Vec Ideal S128x128 .f32) (x5 : Vec Ideal S1x128 .f32) (x6 : Vec Ideal S10000x1 .i32)
    (prev : Vec Ideal S256x128 .f32) (g : Fin 256) (q : Fin 128) :
    step2 (F := Ideal) x0 x1 x2 x3 x4 x5 x6 prev (ix2 g q)
      = prev (ix2 g q) + ∑ r : Fin 10000,
          (if x6 (ix2 r (0 : Fin 1)) = BitVec.ofNat 32 g.val then oPay2 (F := Ideal) x0 x1 x2 x3 x4 x5 (ix2 r q) else 0) := by
  unfold step2 k2_pay1
  refine (addf_apply _ _ _).trans ?_
  rw [shapeCast_self]
  refine congrArg (fun y => prev (ix2 g q) + y) ?_
  refine (pool_matmul_apply _ _ g q).trans ?_
  refine Finset.sum_congr rfl fun r _ => ?_
  unfold k2_pay4
  rw [onehot_apply x6 r g]
  show (if x6 (ix2 r (0 : Fin 1)) = BitVec.ofNat 32 g.val then (1 : EReal) else 0) * oPay2 (F := Ideal) x0 x1 x2 x3 x4 x5 (ix2 r q) = _
  rw [ite_mul, one_mul, zero_mul]

theorem zero2_apply (i : S256x128.Idx) : zero2 (F := Ideal) i = 0 := by
  unfold zero2 k2_pay2
  exact Ideal.ofBits_zero_f32

end Cert.KernelIdeal.Val

end
-- ==== Proof.KI.Val.Arr2.lean ====
import proofs.«404761_j17377437680137_2_alg».proof.Proof.KI.Val.Tile2
import proofs.«404761_j17377437680137_2_alg».proof.Proof.KI.K2.Data
import Idealize.ShloMosaic.Lib.Pipeline.Value
import Idealize.ShloMosaic.Lib.Pipeline.FrameBody

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

open Idealize.ShloMosaic.Pipeline (Dat)

variable (V : (c : Dev nD) → (b : Ref sig .tc) → Buf (Elt Ideal) ((c : Thread nD τ).loc b))

abbrev ar2_0 (c : Dev nD) : Vec Ideal S50000x128 .f32 := V c (Pipeline.arrRef spec2 0)
abbrev ar2_1 (c : Dev nD) : Vec Ideal S50000x128 .f32 := V c (Pipeline.arrRef spec2 1)
abbrev ar2_2 (c : Dev nD) : Vec Ideal S128x128 .f32 := V c (Pipeline.arrRef spec2 2)
abbrev ar2_3 (c : Dev nD) : Vec Ideal S1x128 .f32 := V c (Pipeline.arrRef spec2 3)
abbrev ar2_4 (c : Dev nD) : Vec Ideal S128x128 .f32 := V c (Pipeline.arrRef spec2 4)
abbrev ar2_5 (c : Dev nD) : Vec Ideal S1x128 .f32 := V c (Pipeline.arrRef spec2 5)
abbrev ar2_6 (c : Dev nD) : Vec Ideal S50000x1 .i32 := V c (Pipeline.arrRef spec2 6)

abbrev out2_7 (c : Dev nD) : Vec Ideal S50000x128 .f32 := (dat2 V c).arrAt 7 cfg2.N
abbrev out2_8 (c : Dev nD) : Vec Ideal S256x128 .f32 := (dat2 V c).arrAt 8 cfg2.N

theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = 0 ∧ win2_8.index t (1 : Fin 2) = 0) :=
  (by decide +kernel : ∀ t : Fin grid2.N, _)

theorem ptLt2 (t : Fin cfg2.N) : t.val < 5 := by
  exact lt_of_lt_of_eq t.isLt N_2

def row2 (t : Fin cfg2.N) (r : Fin 10000) : Fin 50000 := ⟨10000 * t.val + r.val, by have := ptLt2 t; omega⟩

theorem blk2_0_read (G : Vec Ideal S50000x128 .f32) (t : Fin cfg2.N) (r : Fin 10000) (q : Fin 128) :
    (((cfg2.win 0).blk t).view.read (Elt Ideal) G : Vec Ideal S10000x128 .f32) (ix2 r q) = G (ix2 (row2 t r) q) := by
  obtain ⟨⟨e0, e1⟩, -, -, -, -, -, -, -, -⟩ := idx2 t
  rw [View.read_apply]
  refine congrArg G (funext fun a => ?_)
  apply Fin.ext
  match a with
  | ⟨0, _⟩ => show win2_0.index t (0 : Fin 2) * 10000 + 1 * r.val = 10000 * t.val + r.val; omega
  | ⟨1, _⟩ => show win2_0.index t (1 : Fin 2) * 128 + 1 * q.val = q.val; omega

theorem blk2_1_read (G : Vec Ideal S50000x128 .f32) (t : Fin cfg2.N) (r : Fin 10000) (q : Fin 128) :
    (((cfg2.win 1).blk t).view.read (Elt Ideal) G : Vec Ideal S10000x128 .f32) (ix2 r q) = G (ix2 (row2 t r) q) := by
  obtain ⟨-, ⟨e0, e1⟩, -, -, -, -, -, -, -⟩ := idx2 t
  rw [View.read_apply]
  refine congrArg G (funext fun a => ?_)
  apply Fin.ext
  match a with
  | ⟨0, _⟩ => show win2_1.index t (0 : Fin 2) * 10000 + 1 * r.val = 10000 * t.val + r.val; omega
  | ⟨1, _⟩ => show win2_1.index t (1 : Fin 2) * 128 + 1 * q.val = q.val; omega

theorem blk2_2_read (G : Vec Ideal S128x128 .f32) (t : Fin cfg2.N) :
    (((cfg2.win 2).blk t).view.read (Elt Ideal) G : Vec Ideal S128x128 .f32) = G := by
  obtain ⟨-, -, ⟨e0, e1⟩, -, -, -, -, -, -⟩ := idx2 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win2_2.index t (0 : Fin 2) * 128 + 1 * a.val = a.val; omega
  | ⟨1, _⟩ => show win2_2.index t (1 : Fin 2) * 128 + 1 * b.val = b.val; omega

theorem blk2_3_read (G : Vec Ideal S1x128 .f32) (t : Fin cfg2.N) :
    (((cfg2.win 3).blk t).view.read (Elt Ideal) G : Vec Ideal S1x128 .f32) = G := by
  obtain ⟨-, -, -, ⟨e0, e1⟩, -, -, -, -, -⟩ := idx2 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win2_3.index t (0 : Fin 2) * 1 + 1 * a.val = a.val; omega
  | ⟨1, _⟩ => show win2_3.index t (1 : Fin 2) * 128 + 1 * b.val = b.val; omega

theorem blk2_4_read (G : Vec Ideal S128x128 .f32) (t : Fin cfg2.N) :
    (((cfg2.win 4).blk t).view.read (Elt Ideal) G : Vec Ideal S128x128 .f32) = G := by
  obtain ⟨-, -, -, -, ⟨e0, e1⟩, -, -, -, -⟩ := idx2 t
  funext j
  obtain ⟨a, b, rfl⟩ : ∃ (a : Fin 128) (b : Fin 128), j = ix2 a b := ⟨j 0, j 1, eq_ix2 j⟩
  rw [View.read_apply]
  refine congrArg G (funext fun d => ?_)
  apply Fin.ext
  match d with
  | ⟨0, _⟩ => show win2_4.index t (0 : Fin 2) * 128 + 1 * a.val = a.val; omega
  | ⟨1, _⟩ => show win2_4.index t (1 : Fin 2) * 128 + 1 * b.val = b.val; omega

theorem blk2_5_read (G : Vec Ideal S1x128 .f32) (t : Fin cfg2.N) :
    (((cfg2.win 5).blk t).view.read (Elt Ideal) G : Vec Ideal S1x128 .f32) = G := by
  obtain ⟨-, -, -, -, -, ⟨e0, e1⟩, -, -, -⟩ := idx2 t
  funext j
  obtain ⟨a, b, rfl⟩ : ∃ (a : Fin 1) (b : Fin 128), j = ix2 a b := ⟨j 0, j 1, eq_ix2 j⟩
  rw [View.read_apply]
  refine congrArg G (funext fun d => ?_)
  apply Fin.ext
  match d with
  | ⟨0, _⟩ => show win2_5.index t (0 : Fin 2) * 1 + 1 * a.val = a.val; omega
  | ⟨1, _⟩ => show win2_5.index t (1 : Fin 2) * 128 + 1 * b.val = b.val; omega

theorem blk2_6_read (G : Vec Ideal S50000x1 .i32) (t : Fin cfg2.N) (r : Fin 10000) (q : Fin 1) :
    (((cfg2.win 6).blk t).view.read (Elt Ideal) G : Vec Ideal S10000x1 .i32) (ix2 r q) = G (ix2 (row2 t r) q) := by
  obtain ⟨-, -, -, -, -, -, ⟨e0, e1⟩, -, -⟩ := idx2 t
  rw [View.read_apply]
  refine congrArg G (funext fun a => ?_)
  apply Fin.ext
  match a with
  | ⟨0, _⟩ => show win2_6.index t (0 : Fin 2) * 10000 + 1 * r.val = 10000 * t.val + r.val; omega
  | ⟨1, _⟩ => show win2_6.index t (1 : Fin 2) * 1 + 1 * q.val = q.val; omega

theorem blk2_7_read (G : Vec Ideal S50000x128 .f32) (t : Fin cfg2.N) (r : Fin 10000) (q : Fin 128) :
    (((cfg2.win 7).blk t).view.read (Elt Ideal) G : Vec Ideal S10000x128 .f32) (ix2 r q) = G (ix2 (row2 t r) q) := by
  obtain ⟨-, -, -, -, -, -, -, ⟨e0, e1⟩, -⟩ := idx2 t
  rw [View.read_apply]
  refine congrArg G (funext fun a => ?_)
  apply Fin.ext
  match a with
  | ⟨0, _⟩ => show win2_7.index t (0 : Fin 2) * 10000 + 1 * r.val = 10000 * t.val + r.val; omega
  | ⟨1, _⟩ => show win2_7.index t (1 : Fin 2) * 128 + 1 * q.val = q.val; omega

theorem blk2_8_read (G : Vec Ideal S256x128 .f32) (t : Fin cfg2.N) :
    (((cfg2.win 8).blk t).view.read (Elt Ideal) G : Vec Ideal S256x128 .f32) = G := by
  obtain ⟨-, -, -, -, -, -, -, -, ⟨e0, e1⟩⟩ := idx2 t
  funext j
  obtain ⟨a, b, rfl⟩ : ∃ (a : Fin 256) (b : Fin 128), j = ix2 a b := ⟨j 0, j 1, eq_ix2 j⟩
  rw [View.read_apply]
  refine congrArg G (funext fun d => ?_)
  apply Fin.ext
  match d with
  | ⟨0, _⟩ => show win2_8.index t (0 : Fin 2) * 256 + 1 * a.val = a.val; omega
  | ⟨1, _⟩ => show win2_8.index t (1 : Fin 2) * 128 + 1 * b.val = b.val; omega

theorem oAt2_apply (c : Dev nD) (t : Fin cfg2.N) (r : Fin 10000) (q : Fin 128) :
    oAt2 V c t (ix2 r q)
      = Cert.Spec.mlp (ar2_0 V c) (ar2_1 V c) (ar2_2 V c) (ar2_3 V c) (ar2_4 V c) (ar2_5 V c) (ix2 (row2 t r) q) := by
  unfold oAt2
  rw [oPay2_apply]
  have h2 : xb2_2 V c t = ar2_2 V c := blk2_2_read (ar2_2 V c) t
  have h3 : xb2_3 V c t = ar2_3 V c := blk2_3_read (ar2_3 V c) t
  have h4 : xb2_4 V c t = ar2_4 V c := blk2_4_read (ar2_4 V c) t
  have h5 : xb2_5 V c t = ar2_5 V c := blk2_5_read (ar2_5 V c) t
  have h01 : (fun j : Fin 128 => xb2_0 V c t (ix2 r j) + xb2_1 V c t (ix2 r j))
      = fun j : Fin 128 => ar2_0 V c (ix2 (row2 t r) j) + ar2_1 V c (ix2 (row2 t r) j) :=
    funext fun j => congrArg₂ (· + ·) (blk2_0_read (ar2_0 V c) t r j) (blk2_1_read (ar2_1 V c) t r j)
  rw [h2, h3, h4, h5, h01]
  rfl

abbrev G2_7 (c : Dev nD) : Vec Ideal S50000x128 .f32 :=
  Cert.Spec.mlp (ar2_0 V c) (ar2_1 V c) (ar2_2 V c) (ar2_3 V c) (ar2_4 V c) (ar2_5 V c)

theorem flushed2_7_eq (c : Dev nD) (t : Fin cfg2.N) :
    (dat2 V c).flushed 7 t = ((cfg2.win 7).blk t).view.read (Elt Ideal) (G2_7 V c) := by
  show (cfg2.win 7).cut (grid2.coords t) ((dat2 V c).after 7 t) = _
  rw [after2_7]
  funext j
  obtain ⟨r, q, rfl⟩ : ∃ (r : Fin 10000) (q : Fin 128), j = ix2 r q := ⟨j 0, j 1, eq_ix2 j⟩
  exact (oAt2_apply V c t r q).trans (blk2_7_read (G2_7 V c) t r q).symm

theorem mem_blk2_7 (t : Fin cfg2.N) (i : S50000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole (Pipeline.arrRef spec2 7)).slice (win2_7.rect t)).set ↔ _
  rw [View.set_slice_whole, Rect.mem_set_unit]
  exact Iff.rfl

theorem cover2_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  let t : Fin cfg2.N := ⟨(i 0).val / 10000, lt_of_lt_of_eq (by omega) N_2.symm⟩
  obtain ⟨-, -, -, -, -, -, -, ⟨e0, e1⟩, -⟩ := idx2 t
  have ht : t.val = (i 0).val / 10000 := rfl
  refine ⟨t, flush2_7 t, ?_⟩
  rw [mem_blk2_7]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 128 ≤ (i 1).val ∧ (i 1).val < win2_7.index t (1 : Fin 2) * 128 + 128; omega

theorem arr2_7 (c : Dev nD) :
    out2_7 V c = Cert.Spec.mlp (ar2_0 V c) (ar2_1 V c) (ar2_2 V c) (ar2_3 V c) (ar2_4 V c) (ar2_5 V c) :=
  (dat2 V c).arrAt_eq_of_cover 7 (G2_7 V c) (fun t _ => flushed2_7_eq V c t) cover2_7

theorem isIn2 : ∀ w : Fin cfg2.W, w.val < 7 → (cfg2.win w).isOut = false :=
  (by decide +kernel : ∀ w : Fin 9, w.val < 7 → (win2 w).isOut = false)

theorem arr2_in (c : Dev nD) (w : Fin cfg2.W) (hw : w.val < 7) : (dat2 V c).arrAt w cfg2.N = V c (Pipeline.arrRef spec2 w) :=
  ((dat2 V c).arrAt_in w (isIn2 w hw) _).trans (A_eq2 V c w)

def tile2 (c : Dev nD) (g : Fin 256) (q : Fin 128) (t : ℕ) : EReal :=
  if h : t < cfg2.N then
    ∑ r : Fin 10000, (if ar2_6 V c (ix2 (row2 ⟨t, h⟩ r) (0 : Fin 1)) = BitVec.ofNat 32 g.val
      then G2_7 V c (ix2 (row2 ⟨t, h⟩ r) q) else 0)
  else 0

theorem step2_at (c : Dev nD) (t : Fin cfg2.N) (prev : Vec Ideal S256x128 .f32) (g : Fin 256) (q : Fin 128) :
    step2 (xb2_0 V c t) (xb2_1 V c t) (xb2_2 V c t) (xb2_3 V c t) (xb2_4 V c t) (xb2_5 V c t) (xb2_6 V c t) prev (ix2 g q)
      = prev (ix2 g q) + tile2 V c g q t.val := by
  rw [step2_apply]
  unfold tile2
  rw [dif_pos t.isLt]
  refine congrArg (prev (ix2 g q) + ·) (Finset.sum_congr rfl fun r _ => ?_)
  have h6 : xb2_6 V c t (ix2 r (0 : Fin 1)) = ar2_6 V c (ix2 (row2 t r) (0 : Fin 1)) := blk2_6_read (ar2_6 V c) t r 0
  have h7 : oPay2 (xb2_0 V c t) (xb2_1 V c t) (xb2_2 V c t) (xb2_3 V c t) (xb2_4 V c t) (xb2_5 V c t) (ix2 r q)
      = G2_7 V c (ix2 (row2 t r) q) := oAt2_apply V c t r q
  rw [h6, h7]

theorem pool2_upto (c : Dev nD) (g : Fin 256) (q : Fin 128) : ∀ (n : ℕ) (hn : n < cfg2.N),
    poolAt2 V c n hn (ix2 g q) = ∑ t ∈ Finset.range (n + 1), tile2 V c g q t
  | 0, hn => by
    rw [Finset.sum_range_one]
    refine (step2_at V c ⟨0, hn⟩ (zero2 (F := Ideal)) g q).trans ?_
    rw [zero2_apply, zero_add]
  | n + 1, hn => by
    rw [Finset.sum_range_succ, ← pool2_upto c g q n (Nat.lt_of_succ_lt hn)]
    exact step2_at V c ⟨n + 1, hn⟩ _ g q

abbrev G2_8 (c : Dev nD) : Vec Ideal S256x128 .f32 := Cert.Spec.pool (ar2_6 V c) (G2_7 V c)

theorem pool2_last (c : Dev nD) (h4 : 4 < cfg2.N) : poolAt2 V c 4 h4 = G2_8 V c := by
  funext j
  obtain ⟨g, q, rfl⟩ : ∃ (g : Fin 256) (q : Fin 128), j = ix2 g q := ⟨j 0, j 1, eq_ix2 j⟩
  rw [pool2_upto]
  show _ = ∑ n : Fin 50000, (fun n : Fin 50000 => if ar2_6 V c (ix2 n (0 : Fin 1)) = BitVec.ofNat 32 g.val then G2_7 V c (ix2 n q) else 0) n
  rw [sum_rows, ← Fin.sum_univ_eq_sum_range]
  refine Finset.sum_congr rfl fun t _ => ?_
  unfold tile2
  rw [dif_pos (lt_of_lt_of_eq t.isLt N_2.symm)]
  rfl

theorem poolAt2_congr (c : Dev nD) {n m : ℕ} (hn : n < cfg2.N) (hm : m < cfg2.N) (e : n = m) :
    poolAt2 V c n hn = poolAt2 V c m hm := by
  subst e; rfl

theorem flushed2_8_eq (c : Dev nD) (t : Fin cfg2.N) (hf : (cfg2.win 8).flush t = true) :
    (dat2 V c).flushed 8 t = ((cfg2.win 8).blk t).view.read (Elt Ideal) (G2_8 V c) := by
  have h4 : t.val = 4 := by have := (flush2_8 t).mp hf; have := ptLt2 t; omega
  show (cfg2.win 8).cut (grid2.coords t) ((dat2 V c).after 8 t) = _
  rw [after2_8, blk2_8_read (G2_8 V c) t, poolAt2_congr V c t.isLt (lt_of_lt_of_eq (by omega) N_2.symm) h4, pool2_last]
  rfl

theorem mem_blk2_8 (t : Fin cfg2.N) (i : S256x128.Idx) :
    i ∈ ((cfg2.win 8).blk t).view.set ↔ ∀ a : Fin 2, win2_8.index t a * S256x128.size a ≤ (i a).val ∧ (i a).val < win2_8.index t a * S256x128.size a + S256x128.size a := by
  show i ∈ ((View.whole (Pipeline.arrRef spec2 8)).slice (win2_8.rect t)).set ↔ _
  rw [View.set_slice_whole, Rect.mem_set_unit]
  exact Iff.rfl

theorem cover2_8 (i : S256x128.Idx) :
    ∃ t : Fin cfg2.N, (cfg2.win 8).flush t = true ∧ i ∈ ((cfg2.win 8).blk t).view.set := by
  have hi0 : (i 0).val < 256 := (i 0).isLt
  have hi1 : (i 1).val < 128 := (i 1).isLt
  let t : Fin cfg2.N := ⟨4, lt_of_lt_of_eq (by omega) N_2.symm⟩
  obtain ⟨-, -, -, -, -, -, -, -, ⟨e0, e1⟩⟩ := idx2 t
  refine ⟨t, (flush2_8 t).mpr rfl, ?_⟩
  rw [mem_blk2_8]
  intro a
  match a with
  | ⟨0, _⟩ => show win2_8.index t (0 : Fin 2) * 256 ≤ (i 0).val ∧ (i 0).val < win2_8.index t (0 : Fin 2) * 256 + 256; omega
  | ⟨1, _⟩ => show win2_8.index t (1 : Fin 2) * 128 ≤ (i 1).val ∧ (i 1).val < win2_8.index t (1 : Fin 2) * 128 + 128; omega

theorem arr2_8 (c : Dev nD) :
    out2_8 V c = Cert.Spec.pool (ar2_6 V c)
      (Cert.Spec.mlp (ar2_0 V c) (ar2_1 V c) (ar2_2 V c) (ar2_3 V c) (ar2_4 V c) (ar2_5 V c)) :=
  (dat2 V c).arrAt_eq_of_cover 8 (G2_8 V c) (flushed2_8_eq V c) cover2_8

end Cert.KernelIdeal.Val

end
-- ==== Proof.Val.Ref.lean ====
import proofs.«404761_j17377437680137_2_alg».proof.Proof.RefRun
import proofs.«404761_j17377437680137_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.Lay

open Cert.ReferenceIdeal Cert.ReferenceIdeal.Read
open Idealize.ShloMosaic Idealize.ShloMosaic.TcCoe Idealize.ShloMosaic.ValueIdx Idealize.SL.Sem

variable {F : FTy → Type} [FloatOps F]

def agg (h : (⟨S50000x128, .f32⟩ : BufTy).Contents (Elt F)) (ei : (⟨S2x800000, .i32⟩ : BufTy).Contents (Elt F)) :
    (⟨S50000x128, .f32⟩ : BufTy).Contents (Elt F) :=
  Host.scatterAdd scatter_S50000x128_S800000x1_S800000x128_1_0_0_1 (val_main_v11 (F := F)) (val_main_v12 (F := F) ei)
    (Host.gather gather_S50000x128_S800000x1_S800000x128_1_0_n_n_0_1_1128 h (val_main_v9 (F := F) ei))

theorem v13_agg (x0 : (⟨S50000x128, .f32⟩ : BufTy).Contents (Elt F)) (x1 : (⟨S2x800000, .i32⟩ : BufTy).Contents (Elt F)) :
    val_main_v13 (F := F) x0 x1 = agg x0 x1 := rfl

theorem v47_agg (x0 : (⟨S50000x128, .f32⟩ : BufTy).Contents (Elt F)) (x1 : (⟨S2x800000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) (x6 : (⟨S3x128, .f32⟩ : BufTy).Contents (Elt F)) :
    val_main_v47 (F := F) x0 x1 x3 x4 x5 x6 = agg (val_main_v34 (F := F) x0 x1 x3 x4 x5 x6) x1 := rfl

theorem v81_agg (x0 : (⟨S50000x128, .f32⟩ : BufTy).Contents (Elt F)) (x1 : (⟨S2x800000, .i32⟩ : BufTy).Contents (Elt F))
    (x3 : (⟨S3x128x128, .f32⟩ : BufTy).Contents (Elt F)) (x4 : (⟨S3x128, .f32⟩ : BufTy).Contents (Elt F))
    (x5 : (⟨S3x128x128, .f32⟩ : BufTy).Contents (Elt F)) (x6 : (⟨S3x128, .f32⟩ : BufTy).Contents (Elt F)) :
    val_main_v81 (F := F) x0 x1 x3 x4 x5 x6 = agg (val_main_v68 (F := F) x0 x1 x3 x4 x5 x6) x1 := rfl

theorem mlp_ix (h a : Cert.Spec.SA.Idx → EReal) (w1 w2 : Cert.Spec.SW.Idx → EReal)
    (b1 b2 : (⟨1, ![128]⟩ : Shape).Idx → EReal) (n : Fin 50000) (q : Fin 128) :
    Cert.Spec.mlp h a w1 (Cert.Spec.rowOf b1) w2 (Cert.Spec.rowOf b2) (ix2 n q) =
      max ((∑ k : Fin 128, max ((∑ k' : Fin 128, (h (ix2 n k') + a (ix2 n k')) * w1 (ix2 k' k)) + b1 (ix1 k)) 0 * w2 (ix2 k q))
        + b2 (ix1 q)) 0 := rfl

abbrev dP : ScatterDims S256x128 S50000x1 S50000x128 := scatter_S256x128_S50000x1_S50000x128_1_0_0_1

theorem toInt_eq_iff (w : BitVec 32) (g : Nat) (hg : g < 256) : w.toInt = (g : Int) ↔ w = BitVec.ofNat 32 g := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    have : g % 2 ^ 32 = g := Nat.mod_eq_of_lt (by omega)
    rw [this]; split <;> omega

theorem dP_siIdx (n : Fin 50000) (k : Fin 128) (c : Fin dP.scatterDimsToOperandDims.length) :
    dP.siIdx (ix2 n k) c = ix2 n (0 : Fin 1) := by
  funext b
  match b with
  | ⟨0, _⟩ => rfl
  | ⟨1, _⟩ => exact Fin.ext (by have := c.isLt; show c.val = 0; have : dP.scatterDimsToOperandDims.length = 1 := rfl; omega)

theorem dP_start0 {w : Nat} (idx : IVec S50000x1 w) (n : Fin 50000) (k : Fin 128) :
    dP.start (ix2 n k) idx 0 = (idx (ix2 n (0 : Fin 1))).toInt := by
  unfold ScatterDims.start
  rw [dif_pos (show (0 : Fin S256x128.rank) ∈ dP.scatterDimsToOperandDims by decide), dP_siIdx]

theorem dP_start1 {w : Nat} (idx : IVec S50000x1 w) (n : Fin 50000) (k : Fin 128) :
    dP.start (ix2 n k) idx 1 = 0 := by
  unfold ScatterDims.start
  rw [dif_neg (show ¬(1 : Fin S256x128.rank) ∈ dP.scatterDimsToOperandDims by decide)]

theorem dP_window0 (n : Fin 50000) (k : Fin 128) : dP.window (ix2 n k) 0 = 0 := by
  unfold ScatterDims.window
  rw [dif_neg (show ¬(0 : Fin S256x128.rank) ∈ dP.sKept by decide)]

theorem dP_window1 (n : Fin 50000) (k : Fin 128) : dP.window (ix2 n k) 1 = k.val := by
  unfold ScatterDims.window
  rw [dif_pos (show (1 : Fin S256x128.rank) ∈ dP.sKept by decide)]
  rfl

theorem dP_resultIdx_iff {w : Nat} (idx : IVec S50000x1 w) (n : Fin 50000) (k : Fin 128) (g : Fin 256) (q : Fin 128) :
    dP.resultIdx? (ix2 n k) idx = some (ix2 g q) ↔ (idx (ix2 n (0 : Fin 1))).toInt = (g.val : Int) ∧ k = q := by
  have hs0 := dP_start0 idx n k
  have hs1 := dP_start1 idx n k
  have hw0 := dP_window0 n k
  have hw1 := dP_window1 n k
  have hz0 : S256x128.size 0 = 256 := rfl
  have hz1 : S256x128.size 1 = 128 := rfl
  unfold ScatterDims.resultIdx?
  constructor
  · intro h
    split at h
    · rename_i hc
      have h' := Option.some.inj h
      have h0 : (dP.start (ix2 n k) idx 0 + dP.window (ix2 n k) 0).toNat = g.val := congrArg (fun f => (f 0).val) h'
      have h1 : (dP.start (ix2 n k) idx 1 + dP.window (ix2 n k) 1).toNat = q.val := congrArg (fun f => (f 1).val) h'
      have c0 := hc 0
      rw [hs0, hw0] at c0 h0
      rw [hs1, hw1] at h1
      exact ⟨by omega, Fin.ext (by omega)⟩
    · cases h
  · rintro ⟨h0, rfl⟩
    have hc : ∀ a : Fin S256x128.rank, 0 ≤ dP.start (ix2 n k) idx a + dP.window (ix2 n k) a ∧
        dP.start (ix2 n k) idx a + dP.window (ix2 n k) a < S256x128.size a := fun a => by
      match a with
      | ⟨0, _⟩ =>
        show 0 ≤ dP.start (ix2 n k) idx 0 + dP.window (ix2 n k) 0 ∧ dP.start (ix2 n k) idx 0 + dP.window (ix2 n k) 0 < S256x128.size 0
        rw [hs0, hw0, hz0, h0]; have := g.isLt; omega
      | ⟨1, _⟩ =>
        show 0 ≤ dP.start (ix2 n k) idx 1 + dP.window (ix2 n k) 1 ∧ dP.start (ix2 n k) idx 1 + dP.window (ix2 n k) 1 < S256x128.size 1
        rw [hs1, hw1, hz1]; have := k.isLt; omega
    rw [dif_pos hc]
    congr 1
    funext a
    match a with
    | ⟨0, _⟩ =>
      apply Fin.ext
      show (dP.start (ix2 n k) idx 0 + dP.window (ix2 n k) 0).toNat = g.val
      rw [hs0, hw0, h0]; omega
    | ⟨1, _⟩ =>
      apply Fin.ext
      show (dP.start (ix2 n k) idx 1 + dP.window (ix2 n k) 1).toNat = k.val
      rw [hs1, hw1]; omega

theorem pool_of_scatter (z : (⟨S256x128, .f32⟩ : BufTy).Contents (Elt Ideal)) (hz : ∀ i, z i = 0)
    (bt : (⟨S50000x1, .i32⟩ : BufTy).Contents (Elt Ideal)) (a : (⟨S50000x128, .f32⟩ : BufTy).Contents (Elt Ideal)) :
    Host.scatterAdd (F := Ideal) (φ := .f32) scatter_S256x128_S50000x1_S50000x128_1_0_0_1 z bt a = Cert.Spec.pool bt a := by
  funext i
  obtain ⟨g, q, rfl⟩ : ∃ (g : Fin 256) (q : Fin 128), i = ix2 g q := ⟨i 0, i 1, eq_ix2 i⟩
  show z (ix2 g q) + ∑ j ∈ Finset.univ.filter (fun j => dP.resultIdx? j bt = some (ix2 g q)), a j =
    ∑ n : Fin 50000, if bt (ix2 n (0 : Fin 1)) = BitVec.ofNat 32 g.val then a (ix2 n q) else 0
  rw [hz, zero_add, Finset.sum_filter, sum_idx2]
  refine Finset.sum_congr rfl fun n _ => ?_
  simp only [dP_resultIdx_iff, toInt_eq_iff _ _ g.isLt]
  by_cases hb : bt (ix2 n (0 : Fin 1)) = BitVec.ofNat 32 g.val
  · simp only [hb, true_and, Finset.sum_ite_eq', Finset.mem_univ, if_true]
  · simp only [hb, false_and, if_false, Finset.sum_const_zero]

section Ideal
variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S3x128x128, .f32⟩ : BufTy).Contents (Elt Ideal))
  (x4 : (⟨S3x128, .f32⟩ : BufTy).Contents (Elt Ideal)) (x5 : (⟨S3x128x128, .f32⟩ : BufTy).Contents (Elt Ideal))
  (x6 : (⟨S3x128, .f32⟩ : BufTy).Contents (Elt Ideal))

abbrev H1 : (⟨S50000x128, .f32⟩ : BufTy).Contents (Elt Ideal) := val_main_v34 (F := Ideal) x0 x1 x3 x4 x5 x6
abbrev H2 : (⟨S50000x128, .f32⟩ : BufTy).Contents (Elt Ideal) := val_main_v68 (F := Ideal) x0 x1 x3 x4 x5 x6
abbrev H3 : (⟨S50000x128, .f32⟩ : BufTy).Contents (Elt Ideal) := val_main_v102 (F := Ideal) x0 x1 x3 x4 x5 x6

theorem ref_h1 : H1 x0 x1 x3 x4 x5 x6 = Cert.Spec.mlp x0 (agg x0 x1) (val_main_v16 (F := Ideal) x3)
    (Cert.Spec.rowOf (val_main_v19 (F := Ideal) x4)) (val_main_v26 (F := Ideal) x5) (Cert.Spec.rowOf (val_main_v29 (F := Ideal) x6)) := by
  funext i
  obtain ⟨n, q, rfl⟩ : ∃ (n : Fin 50000) (q : Fin 128), i = ix2 n q := ⟨i 0, i 1, eq_ix2 i⟩

  have e1 : ∀ k : Fin 128, lidx_main_v27 (ix2 n q) k = ix2 n k := fun k => by
    funext a; match a with | ⟨0, _⟩ => rfl | ⟨1, _⟩ => rfl
  have e2 : ∀ k : Fin 128, ridx_main_v27 (ix2 n q) k = ix2 k q := fun k => by
    funext a; match a with | ⟨0, _⟩ => rfl | ⟨1, _⟩ => rfl

  have e3 : ∀ k k' : Fin 128, lidx_main_v17 (ix2 n k) k' = ix2 n k' := fun k k' => by
    funext a; match a with | ⟨0, _⟩ => rfl | ⟨1, _⟩ => rfl
  have e4 : ∀ k k' : Fin 128, ridx_main_v17 (ix2 n k) k' = ix2 k' k := fun k k' => by
    funext a; match a with | ⟨0, _⟩ => rfl | ⟨1, _⟩ => rfl

  have e5 : ∀ k : Fin 128, idx_main_v20 (idx_main_v21 (ix2 n k)) = ix1 k := fun k => by
    funext a; match a with | ⟨0, _⟩ => rfl
  have e6 : idx_main_v30 (idx_main_v31 (ix2 n q)) = ix1 q := by
    funext a; match a with | ⟨0, _⟩ => rfl
  rw [mlp_ix]
  show val_main_v34 (F := Ideal) x0 x1 x3 x4 x5 x6 (ix2 n q) = _
  simp only [val_main_v34_apply, val_main_v33_apply, val_main_cst_2_apply, val_main_v32_apply, val_main_v31_apply,
    val_main_v30_apply, val_main_v27_apply, val_main_v24_apply, val_main_v23_apply, val_main_cst_1_apply,
    val_main_v22_apply, val_main_v21_apply, val_main_v20_apply, val_main_v17_apply, val_main_v14_apply,
    v13_agg, e1, e2, e3, e4, e5, e6, Ideal.maximumf_def, Ideal.addf_def, Ideal.ofBits_def, Ideal.ofBits_zero_f32]

theorem ref_p1 : val_main_v37 (F := Ideal) x0 x1 x2 x3 x4 x5 x6 = Cert.Spec.pool (Cert.Spec.colOf x2) (H1 x0 x1 x3 x4 x5 x6) := by
  have hid : val_main_v36 (F := Ideal) x2 = Cert.Spec.colOf x2 := funext fun i => by
    rw [val_main_v36_apply]
    exact congrArg x2 (funext fun a => by match a with | ⟨0, _⟩ => rfl)
  unfold val_main_v37
  rw [hid]
  exact pool_of_scatter _ (fun i => by
    rw [val_main_v35_apply, val_main_cst_3_apply, Ideal.ofBits_def, Ideal.ofBits_zero_f32]) _ _

theorem ref_h2 : H2 x0 x1 x3 x4 x5 x6 = Cert.Spec.mlp (H1 x0 x1 x3 x4 x5 x6) (agg (H1 x0 x1 x3 x4 x5 x6) x1) (val_main_v50 (F := Ideal) x3)
    (Cert.Spec.rowOf (val_main_v53 (F := Ideal) x4)) (val_main_v60 (F := Ideal) x5) (Cert.Spec.rowOf (val_main_v63 (F := Ideal) x6)) := by
  funext i
  obtain ⟨n, q, rfl⟩ : ∃ (n : Fin 50000) (q : Fin 128), i = ix2 n q := ⟨i 0, i 1, eq_ix2 i⟩

  have e1 : ∀ k : Fin 128, lidx_main_v61 (ix2 n q) k = ix2 n k := fun k => by
    funext a; match a with | ⟨0, _⟩ => rfl | ⟨1, _⟩ => rfl
  have e2 : ∀ k : Fin 128, ridx_main_v61 (ix2 n q) k = ix2 k q := fun k => by
    funext a; match a with | ⟨0, _⟩ => rfl | ⟨1, _⟩ => rfl

  have e3 : ∀ k k' : Fin 128, lidx_main_v51 (ix2 n k) k' = ix2 n k' := fun k k' => by
    funext a; match a with | ⟨0, _⟩ => rfl | ⟨1, _⟩ => rfl
  have e4 : ∀ k k' : Fin 128, ridx_main_v51 (ix2 n k) k' = ix2 k' k := fun k k' => by
    funext a; match a with | ⟨0, _⟩ => rfl | ⟨1, _⟩ => rfl

  have e5 : ∀ k : Fin 128, idx_main_v54 (idx_main_v55 (ix2 n k)) = ix1 k := fun k => by
    funext a; match a with | ⟨0, _⟩ => rfl
  have e6 : idx_main_v64 (idx_main_v65 (ix2 n q)) = ix1 q := by
    funext a; match a with | ⟨0, _⟩ => rfl
  rw [mlp_ix]
  show val_main_v68 (F := Ideal) x0 x1 x3 x4 x5 x6 (ix2 n q) = _
  simp only [val_main_v68_apply, val_main_v67_apply, val_main_cst_8_apply, val_main_v66_apply, val_main_v65_apply,
    val_main_v64_apply, val_main_v61_apply, val_main_v58_apply, val_main_v57_apply, val_main_cst_7_apply,
    val_main_v56_apply, val_main_v55_apply, val_main_v54_apply, val_main_v51_apply, val_main_v48_apply,
    v47_agg, e1, e2, e3, e4, e5, e6, Ideal.maximumf_def, Ideal.addf_def, Ideal.ofBits_def, Ideal.ofBits_zero_f32]

theorem ref_p2 : val_main_v71 (F := Ideal) x0 x1 x2 x3 x4 x5 x6 = Cert.Spec.pool (Cert.Spec.colOf x2) (H2 x0 x1 x3 x4 x5 x6) := by
  have hid : val_main_v70 (F := Ideal) x2 = Cert.Spec.colOf x2 := funext fun i => by
    rw [val_main_v70_apply]
    exact congrArg x2 (funext fun a => by match a with | ⟨0, _⟩ => rfl)
  unfold val_main_v71
  rw [hid]
  exact pool_of_scatter _ (fun i => by
    rw [val_main_v69_apply, val_main_cst_9_apply, Ideal.ofBits_def, Ideal.ofBits_zero_f32]) _ _

theorem ref_h3 : H3 x0 x1 x3 x4 x5 x6 = Cert.Spec.mlp (H2 x0 x1 x3 x4 x5 x6) (agg (H2 x0 x1 x3 x4 x5 x6) x1) (val_main_v84 (F := Ideal) x3)
    (Cert.Spec.rowOf (val_main_v87 (F := Ideal) x4)) (val_main_v94 (F := Ideal) x5) (Cert.Spec.rowOf (val_main_v97 (F := Ideal) x6)) := by
  funext i
  obtain ⟨n, q, rfl⟩ : ∃ (n : Fin 50000) (q : Fin 128), i = ix2 n q := ⟨i 0, i 1, eq_ix2 i⟩

  have e1 : ∀ k : Fin 128, lidx_main_v95 (ix2 n q) k = ix2 n k := fun k => by
    funext a; match a with | ⟨0, _⟩ => rfl | ⟨1, _⟩ => rfl
  have e2 : ∀ k : Fin 128, ridx_main_v95 (ix2 n q) k = ix2 k q := fun k => by
    funext a; match a with | ⟨0, _⟩ => rfl | ⟨1, _⟩ => rfl

  have e3 : ∀ k k' : Fin 128, lidx_main_v85 (ix2 n k) k' = ix2 n k' := fun k k' => by
    funext a; match a with | ⟨0, _⟩ => rfl | ⟨1, _⟩ => rfl
  have e4 : ∀ k k' : Fin 128, ridx_main_v85 (ix2 n k) k' = ix2 k' k := fun k k' => by
    funext a; match a with | ⟨0, _⟩ => rfl | ⟨1, _⟩ => rfl

  have e5 : ∀ k : Fin 128, idx_main_v88 (idx_main_v89 (ix2 n k)) = ix1 k := fun k => by
    funext a; match a with | ⟨0, _⟩ => rfl
  have e6 : idx_main_v98 (idx_main_v99 (ix2 n q)) = ix1 q := by
    funext a; match a with | ⟨0, _⟩ => rfl
  rw [mlp_ix]
  show val_main_v102 (F := Ideal) x0 x1 x3 x4 x5 x6 (ix2 n q) = _
  simp only [val_main_v102_apply, val_main_v101_apply, val_main_cst_14_apply, val_main_v100_apply, val_main_v99_apply,
    val_main_v98_apply, val_main_v95_apply, val_main_v92_apply, val_main_v91_apply, val_main_cst_13_apply,
    val_main_v90_apply, val_main_v89_apply, val_main_v88_apply, val_main_v85_apply, val_main_v82_apply,
    v81_agg, e1, e2, e3, e4, e5, e6, Ideal.maximumf_def, Ideal.addf_def, Ideal.ofBits_def, Ideal.ofBits_zero_f32]

theorem ref_p3 : val_main_v105 (F := Ideal) x0 x1 x2 x3 x4 x5 x6 = Cert.Spec.pool (Cert.Spec.colOf x2) (H3 x0 x1 x3 x4 x5 x6) := by
  have hid : val_main_v104 (F := Ideal) x2 = Cert.Spec.colOf x2 := funext fun i => by
    rw [val_main_v104_apply]
    exact congrArg x2 (funext fun a => by match a with | ⟨0, _⟩ => rfl)
  unfold val_main_v105
  rw [hid]
  exact pool_of_scatter _ (fun i => by
    rw [val_main_v103_apply, val_main_cst_15_apply, Ideal.ofBits_def, Ideal.ofBits_zero_f32]) _ _

end Ideal

end Cert.ReferenceIdeal.Lay

end
-- ==== Proof.KI.Val.Host.lean ====
import proofs.«404761_j17377437680137_2_alg».proof.Proof.Gen.KernelIdeal.Launch
import proofs.«404761_j17377437680137_2_alg».proof.Proof.Gen.KernelIdeal.Regions
import proofs.«404761_j17377437680137_2_alg».proof.Proof.Val.Ref
import proofs.«404761_j17377437680137_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

theorem shapeCast_rowOf (y : (⟨1, ![128]⟩ : Shape).Idx → EReal) (h : (⟨1, ![128]⟩ : Shape).ShapeCasts ⟨2, ![1, 128]⟩) :
    shapeCast ⟨2, ![1, 128]⟩ y h = Cert.Spec.rowOf y := by
  funext i
  refine (congrArg (shapeCast ⟨2, ![1, 128]⟩ y h) (eq_ix2 i)).trans ?_
  exact shapeCast_a_1a_apply y h (i 0) (i 1)

theorem shapeCast_colOf (y : (⟨1, ![50000]⟩ : Shape).Idx → BitVec 32) (h : (⟨1, ![50000]⟩ : Shape).ShapeCasts ⟨2, ![50000, 1]⟩) :
    shapeCast ⟨2, ![50000, 1]⟩ y h = Cert.Spec.colOf y := by
  funext i
  refine shapeCast_apply y h i (ix1 (i 0)) ?_
  rw [Shape.rowMajor_val_one, Shape.rowMajor_val_two]
  have h1 : (i 1).val < 1 := idx2_lt1 i
  show (i 0).val = (i 0).val * 1 + (i 1).val
  omega

theorem gather_conv {s si t : Shape} {w : Nat} (gd : GatherDims s si t) (x : FVec Ideal s .f32) (idx : IVec si w)
    (h1 : FTy.bits .bf16 < FTy.bits .f32) (h2 : FTy.bits .bf16 < FTy.bits .f32) :
    extf .f32 (Host.gather gd (truncf .bf16 x h1) idx) h2 = Host.gather gd x idx := rfl

variable (W : Valuation τ sig (Elt Ideal))

theorem host0_v1 : StableHlo.after hostOps0 W (Proc.devRef .tc main_v1) = Cert.ReferenceIdeal.Read.val_main_v1 (F := Ideal) (W (Proc.devRef .tc main_arg1)) := by
  after_results_simp
  rfl
theorem host0_v3 : StableHlo.after hostOps0 W (Proc.devRef .tc main_v3) = Cert.ReferenceIdeal.Read.val_main_v3 (F := Ideal) (W (Proc.devRef .tc main_arg1)) := by
  after_results_simp
  rfl
theorem host0_agg : StableHlo.after hostOps0 W (Proc.devRef .tc main_v15) = Cert.ReferenceIdeal.Lay.agg (W (Proc.devRef .tc main_arg0)) (W (Proc.devRef .tc main_arg1)) := by
  after_results_simp
  rw [gather_conv]
  unfold Cert.ReferenceIdeal.Lay.agg
  rfl
theorem host0_w1 : StableHlo.after hostOps0 W (Proc.devRef .tc main_v17) = Cert.ReferenceIdeal.Read.val_main_v16 (F := Ideal) (W (Proc.devRef .tc main_arg3)) := by
  after_results_simp
  rfl
theorem host0_b1 : StableHlo.after hostOps0 W (Proc.devRef .tc main_v24) = Cert.Spec.rowOf (Cert.ReferenceIdeal.Read.val_main_v19 (F := Ideal) (W (Proc.devRef .tc main_arg4))) := by
  after_results_simp
  exact shapeCast_rowOf _ _
theorem host0_w2 : StableHlo.after hostOps0 W (Proc.devRef .tc main_v21) = Cert.ReferenceIdeal.Read.val_main_v26 (F := Ideal) (W (Proc.devRef .tc main_arg5)) := by
  after_results_simp
  rfl
theorem host0_b2 : StableHlo.after hostOps0 W (Proc.devRef .tc main_v25) = Cert.Spec.rowOf (Cert.ReferenceIdeal.Read.val_main_v29 (F := Ideal) (W (Proc.devRef .tc main_arg6))) := by
  after_results_simp
  exact shapeCast_rowOf _ _
theorem host0_bt : StableHlo.after hostOps0 W (Proc.devRef .tc main_v26) = Cert.Spec.colOf (W (Proc.devRef .tc main_arg2)) := by
  after_results_simp
  exact shapeCast_colOf _ _

theorem host0_keep (r : Ref sig .tc) (h : r ∉ hostOps0_W) : StableHlo.after hostOps0 W (Proc.devRef .tc r) = W (Proc.devRef .tc r) :=
  StableHlo.after_of_writes_sub hostOps0 W hostOps0_writes h

theorem host1_agg
    (hv1 : W (Proc.devRef .tc main_v1) = Cert.ReferenceIdeal.Read.val_main_v1 (F := Ideal) (W (Proc.devRef .tc main_arg1)))
    (hv3 : W (Proc.devRef .tc main_v3) = Cert.ReferenceIdeal.Read.val_main_v3 (F := Ideal) (W (Proc.devRef .tc main_arg1))) :
    StableHlo.after hostOps1 W (Proc.devRef .tc main_v39) = Cert.ReferenceIdeal.Lay.agg (W (Proc.devRef .tc main_v27_0)) (W (Proc.devRef .tc main_arg1)) := by
  after_results_simp
  rw [gather_conv, hv1, hv3]
  unfold Cert.ReferenceIdeal.Lay.agg
  rfl
theorem host1_w1 : StableHlo.after hostOps1 W (Proc.devRef .tc main_v41) = Cert.ReferenceIdeal.Read.val_main_v50 (F := Ideal) (W (Proc.devRef .tc main_arg3)) := by
  after_results_simp
  rfl
theorem host1_b1 : StableHlo.after hostOps1 W (Proc.devRef .tc main_v48) = Cert.Spec.rowOf (Cert.ReferenceIdeal.Read.val_main_v53 (F := Ideal) (W (Proc.devRef .tc main_arg4))) := by
  after_results_simp
  exact shapeCast_rowOf _ _
theorem host1_w2 : StableHlo.after hostOps1 W (Proc.devRef .tc main_v45) = Cert.ReferenceIdeal.Read.val_main_v60 (F := Ideal) (W (Proc.devRef .tc main_arg5)) := by
  after_results_simp
  rfl
theorem host1_b2 : StableHlo.after hostOps1 W (Proc.devRef .tc main_v49) = Cert.Spec.rowOf (Cert.ReferenceIdeal.Read.val_main_v63 (F := Ideal) (W (Proc.devRef .tc main_arg6))) := by
  after_results_simp
  exact shapeCast_rowOf _ _
theorem host1_bt : StableHlo.after hostOps1 W (Proc.devRef .tc main_v50) = Cert.Spec.colOf (W (Proc.devRef .tc main_arg2)) := by
  after_results_simp
  exact shapeCast_colOf _ _

theorem host1_keep (r : Ref sig .tc) (h : r ∉ hostOps1_W) : StableHlo.after hostOps1 W (Proc.devRef .tc r) = W (Proc.devRef .tc r) :=
  StableHlo.after_of_writes_sub hostOps1 W hostOps1_writes h

theorem host2_agg
    (hv1 : W (Proc.devRef .tc main_v1) = Cert.ReferenceIdeal.Read.val_main_v1 (F := Ideal) (W (Proc.devRef .tc main_arg1)))
    (hv3 : W (Proc.devRef .tc main_v3) = Cert.ReferenceIdeal.Read.val_main_v3 (F := Ideal) (W (Proc.devRef .tc main_arg1))) :
    StableHlo.after hostOps2 W (Proc.devRef .tc main_v63) = Cert.ReferenceIdeal.Lay.agg (W (Proc.devRef .tc main_v51_0)) (W (Proc.devRef .tc main_arg1)) := by
  after_results_simp
  rw [gather_conv, hv1, hv3]
  unfold Cert.ReferenceIdeal.Lay.agg
  rfl
theorem host2_w1 : StableHlo.after hostOps2 W (Proc.devRef .tc main_v65) = Cert.ReferenceIdeal.Read.val_main_v84 (F := Ideal) (W (Proc.devRef .tc main_arg3)) := by
  after_results_simp
  rfl
theorem host2_b1 : StableHlo.after hostOps2 W (Proc.devRef .tc main_v72) = Cert.Spec.rowOf (Cert.ReferenceIdeal.Read.val_main_v87 (F := Ideal) (W (Proc.devRef .tc main_arg4))) := by
  after_results_simp
  exact shapeCast_rowOf _ _
theorem host2_w2 : StableHlo.after hostOps2 W (Proc.devRef .tc main_v69) = Cert.ReferenceIdeal.Read.val_main_v94 (F := Ideal) (W (Proc.devRef .tc main_arg5)) := by
  after_results_simp
  rfl
theorem host2_b2 : StableHlo.after hostOps2 W (Proc.devRef .tc main_v73) = Cert.Spec.rowOf (Cert.ReferenceIdeal.Read.val_main_v97 (F := Ideal) (W (Proc.devRef .tc main_arg6))) := by
  after_results_simp
  exact shapeCast_rowOf _ _
theorem host2_bt : StableHlo.after hostOps2 W (Proc.devRef .tc main_v74) = Cert.Spec.colOf (W (Proc.devRef .tc main_arg2)) := by
  after_results_simp
  exact shapeCast_colOf _ _

theorem host2_keep (r : Ref sig .tc) (h : r ∉ hostOps2_W) : StableHlo.after hostOps2 W (Proc.devRef .tc r) = W (Proc.devRef .tc r) :=
  StableHlo.after_of_writes_sub hostOps2 W hostOps2_writes h

theorem host3_out : StableHlo.after hostOps3 W (Proc.devRef .tc main_v76)
    = concatenate S256x384 1 [⟨S256x128, W (Proc.devRef .tc main_v27_1)⟩, ⟨S256x128, W (Proc.devRef .tc main_v51_1)⟩, ⟨S256x128, W (Proc.devRef .tc main_v75_1)⟩]
        concatenates_S256x128_S256x128_S256x128_S256x384_d1 := by
  after_results
  rfl
theorem host3_keep (r : Ref sig .tc) (h : r ∉ hostOps3_W) : StableHlo.after hostOps3 W (Proc.devRef .tc r) = W (Proc.devRef .tc r) :=
  StableHlo.after_of_writes_sub hostOps3 W hostOps3_writes h

end Cert.KernelIdeal.Val

end
-- ==== Proof.KI.Val.Result.lean ====
import proofs.«404761_j17377437680137_2_alg».proof.Proof.KI.Fold
import proofs.«404761_j17377437680137_2_alg».proof.Proof.KI.Val.Arr0
import proofs.«404761_j17377437680137_2_alg».proof.Proof.KI.Val.Arr1
import proofs.«404761_j17377437680137_2_alg».proof.Proof.KI.Val.Arr2
import proofs.«404761_j17377437680137_2_alg».proof.Proof.KI.Val.Host
import proofs.«404761_j17377437680137_2_alg».proof.Proof.Val.Ref

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

section
variable (m : (ℓ : Loc nD τ sig) → Buf (Elt Ideal) ℓ) (c : Dev nD)

theorem W2_arg (r : Ref sig .tc) (hr : r ∈ ([main_arg1, main_arg2, main_arg3, main_arg4, main_arg5, main_arg6] : List (Ref sig .tc))) :
    W2 m c (Proc.devRef .tc r) = m ((c : Thread nD τ).loc r) := by
  refine (W2_of_ne m c r (by intro w; revert hr; revert r; revert w; decide)).trans ?_
  refine (host0_keep (W0 m c) r (by revert hr; revert r; decide)).trans ?_
  rfl

theorem W2_v1 : W2 m c (Proc.devRef .tc main_v1) = (Cert.ReferenceIdeal.Read.val_main_v1 (F := Ideal) (m ((c : Thread nD τ).loc main_arg1))) := by
  refine (W2_of_ne m c main_v1 (by decide)).trans ?_
  exact host0_v1 (W0 m c)
theorem W2_v3 : W2 m c (Proc.devRef .tc main_v3) = (Cert.ReferenceIdeal.Read.val_main_v3 (F := Ideal) (m ((c : Thread nD τ).loc main_arg1))) := by
  refine (W2_of_ne m c main_v3 (by decide)).trans ?_
  exact host0_v3 (W0 m c)

theorem in0_0 : ar0_0 (V1 m) c = (m ((c : Thread nD τ).loc main_arg0)) := by
    exact (host0_keep (W0 m c) main_arg0 (by decide)).trans rfl
theorem in0_1 : ar0_1 (V1 m) c = Cert.ReferenceIdeal.Lay.agg (m ((c : Thread nD τ).loc main_arg0)) (m ((c : Thread nD τ).loc main_arg1)) := by
    exact host0_agg (W0 m c)
theorem in0_2 : ar0_2 (V1 m) c = Cert.ReferenceIdeal.Read.val_main_v16 (F := Ideal) (m ((c : Thread nD τ).loc main_arg3)) := by
  refine (host0_w1 (W0 m c)).trans ?_
  rfl
theorem in0_3 : ar0_3 (V1 m) c = Cert.Spec.rowOf (Cert.ReferenceIdeal.Read.val_main_v19 (F := Ideal) (m ((c : Thread nD τ).loc main_arg4))) := by
  refine (host0_b1 (W0 m c)).trans ?_
  rfl
theorem in0_4 : ar0_4 (V1 m) c = Cert.ReferenceIdeal.Read.val_main_v26 (F := Ideal) (m ((c : Thread nD τ).loc main_arg5)) := by
  refine (host0_w2 (W0 m c)).trans ?_
  rfl
theorem in0_5 : ar0_5 (V1 m) c = Cert.Spec.rowOf (Cert.ReferenceIdeal.Read.val_main_v29 (F := Ideal) (m ((c : Thread nD τ).loc main_arg6))) := by
  refine (host0_b2 (W0 m c)).trans ?_
  rfl
theorem in0_6 : ar0_6 (V1 m) c = Cert.Spec.colOf (m ((c : Thread nD τ).loc main_arg2)) := by
  refine (host0_bt (W0 m c)).trans ?_
  rfl

theorem W2_h : W2 m c (Proc.devRef .tc main_v27_0) = (Cert.ReferenceIdeal.Lay.H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W2_arr m c 7).trans ?_
  refine (arr0_7 (V1 m) c).trans ?_
  rw [in0_0 m c, in0_1 m c, in0_2 m c, in0_3 m c, in0_4 m c, in0_5 m c]
  exact (Cert.ReferenceIdeal.Lay.ref_h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

theorem W2_p : W2 m c (Proc.devRef .tc main_v27_1) = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W2_arr m c 8).trans ?_
  refine (arr0_8 (V1 m) c).trans ?_
  rw [in0_0 m c, in0_1 m c, in0_2 m c, in0_3 m c, in0_4 m c, in0_5 m c, in0_6 m c]
  refine Eq.trans ?_ (Cert.ReferenceIdeal.Lay.ref_p1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm
  rw [Cert.ReferenceIdeal.Lay.ref_h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))]

end

section
variable (m : (ℓ : Loc nD τ sig) → Buf (Elt Ideal) ℓ) (c : Dev nD)

theorem W4_arg (r : Ref sig .tc) (hr : r ∈ ([main_arg1, main_arg2, main_arg3, main_arg4, main_arg5, main_arg6] : List (Ref sig .tc))) :
    W4 m c (Proc.devRef .tc r) = m ((c : Thread nD τ).loc r) := by
  refine (W4_of_ne m c r (by intro w; revert hr; revert r; revert w; decide)).trans ?_
  refine (host1_keep (W2 m c) r (by revert hr; revert r; decide)).trans ?_
  exact W2_arg m c r hr

theorem W4_v1 : W4 m c (Proc.devRef .tc main_v1) = (Cert.ReferenceIdeal.Read.val_main_v1 (F := Ideal) (m ((c : Thread nD τ).loc main_arg1))) := by
  refine (W4_of_ne m c main_v1 (by decide)).trans ?_
  exact (host1_keep (W2 m c) main_v1 (by decide)).trans (W2_v1 m c)
theorem W4_v3 : W4 m c (Proc.devRef .tc main_v3) = (Cert.ReferenceIdeal.Read.val_main_v3 (F := Ideal) (m ((c : Thread nD τ).loc main_arg1))) := by
  refine (W4_of_ne m c main_v3 (by decide)).trans ?_
  exact (host1_keep (W2 m c) main_v3 (by decide)).trans (W2_v3 m c)

theorem in1_0 : ar1_0 (V3 m) c = (Cert.ReferenceIdeal.Lay.H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
    exact (host1_keep (W2 m c) main_v27_0 (by decide)).trans (W2_h m c)
theorem in1_1 : ar1_1 (V3 m) c = Cert.ReferenceIdeal.Lay.agg (Cert.ReferenceIdeal.Lay.H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) := by
    refine (host1_agg (W2 m c) ((W2_v1 m c).trans (congrArg _ (W2_arg m c main_arg1 (by decide)).symm)) ((W2_v3 m c).trans (congrArg _ (W2_arg m c main_arg1 (by decide)).symm))).trans ?_
    rw [W2_h m c, W2_arg m c main_arg1 (by decide)]
theorem in1_2 : ar1_2 (V3 m) c = Cert.ReferenceIdeal.Read.val_main_v50 (F := Ideal) (m ((c : Thread nD τ).loc main_arg3)) := by
  refine (host1_w1 (W2 m c)).trans ?_
  rw [W2_arg m c main_arg3 (by decide)]
theorem in1_3 : ar1_3 (V3 m) c = Cert.Spec.rowOf (Cert.ReferenceIdeal.Read.val_main_v53 (F := Ideal) (m ((c : Thread nD τ).loc main_arg4))) := by
  refine (host1_b1 (W2 m c)).trans ?_
  rw [W2_arg m c main_arg4 (by decide)]
theorem in1_4 : ar1_4 (V3 m) c = Cert.ReferenceIdeal.Read.val_main_v60 (F := Ideal) (m ((c : Thread nD τ).loc main_arg5)) := by
  refine (host1_w2 (W2 m c)).trans ?_
  rw [W2_arg m c main_arg5 (by decide)]
theorem in1_5 : ar1_5 (V3 m) c = Cert.Spec.rowOf (Cert.ReferenceIdeal.Read.val_main_v63 (F := Ideal) (m ((c : Thread nD τ).loc main_arg6))) := by
  refine (host1_b2 (W2 m c)).trans ?_
  rw [W2_arg m c main_arg6 (by decide)]
theorem in1_6 : ar1_6 (V3 m) c = Cert.Spec.colOf (m ((c : Thread nD τ).loc main_arg2)) := by
  refine (host1_bt (W2 m c)).trans ?_
  rw [W2_arg m c main_arg2 (by decide)]

theorem W4_h : W4 m c (Proc.devRef .tc main_v51_0) = (Cert.ReferenceIdeal.Lay.H2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W4_arr m c 7).trans ?_
  refine (arr1_7 (V3 m) c).trans ?_
  rw [in1_0 m c, in1_1 m c, in1_2 m c, in1_3 m c, in1_4 m c, in1_5 m c]
  exact (Cert.ReferenceIdeal.Lay.ref_h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

theorem W4_p : W4 m c (Proc.devRef .tc main_v51_1) = (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W4_arr m c 8).trans ?_
  refine (arr1_8 (V3 m) c).trans ?_
  rw [in1_0 m c, in1_1 m c, in1_2 m c, in1_3 m c, in1_4 m c, in1_5 m c, in1_6 m c]
  refine Eq.trans ?_ (Cert.ReferenceIdeal.Lay.ref_p2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm
  rw [Cert.ReferenceIdeal.Lay.ref_h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))]

theorem W4_keep1 : W4 m c (Proc.devRef .tc main_v27_1) = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    exact (W4_of_ne m c main_v27_1 (by decide)).trans ((host1_keep (W2 m c) main_v27_1 (by decide)).trans (W2_p m c))

end

section
variable (m : (ℓ : Loc nD τ sig) → Buf (Elt Ideal) ℓ) (c : Dev nD)

theorem W6_arg (r : Ref sig .tc) (hr : r ∈ ([main_arg1, main_arg2, main_arg3, main_arg4, main_arg5, main_arg6] : List (Ref sig .tc))) :
    W6 m c (Proc.devRef .tc r) = m ((c : Thread nD τ).loc r) := by
  refine (W6_of_ne m c r (by intro w; revert hr; revert r; revert w; decide)).trans ?_
  refine (host2_keep (W4 m c) r (by revert hr; revert r; decide)).trans ?_
  exact W4_arg m c r hr

theorem W6_v1 : W6 m c (Proc.devRef .tc main_v1) = (Cert.ReferenceIdeal.Read.val_main_v1 (F := Ideal) (m ((c : Thread nD τ).loc main_arg1))) := by
  refine (W6_of_ne m c main_v1 (by decide)).trans ?_
  exact (host2_keep (W4 m c) main_v1 (by decide)).trans (W4_v1 m c)
theorem W6_v3 : W6 m c (Proc.devRef .tc main_v3) = (Cert.ReferenceIdeal.Read.val_main_v3 (F := Ideal) (m ((c : Thread nD τ).loc main_arg1))) := by
  refine (W6_of_ne m c main_v3 (by decide)).trans ?_
  exact (host2_keep (W4 m c) main_v3 (by decide)).trans (W4_v3 m c)

theorem in2_0 : ar2_0 (V5 m) c = (Cert.ReferenceIdeal.Lay.H2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
    exact (host2_keep (W4 m c) main_v51_0 (by decide)).trans (W4_h m c)
theorem in2_1 : ar2_1 (V5 m) c = Cert.ReferenceIdeal.Lay.agg (Cert.ReferenceIdeal.Lay.H2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) := by
    refine (host2_agg (W4 m c) ((W4_v1 m c).trans (congrArg _ (W4_arg m c main_arg1 (by decide)).symm)) ((W4_v3 m c).trans (congrArg _ (W4_arg m c main_arg1 (by decide)).symm))).trans ?_
    rw [W4_h m c, W4_arg m c main_arg1 (by decide)]
theorem in2_2 : ar2_2 (V5 m) c = Cert.ReferenceIdeal.Read.val_main_v84 (F := Ideal) (m ((c : Thread nD τ).loc main_arg3)) := by
  refine (host2_w1 (W4 m c)).trans ?_
  rw [W4_arg m c main_arg3 (by decide)]
theorem in2_3 : ar2_3 (V5 m) c = Cert.Spec.rowOf (Cert.ReferenceIdeal.Read.val_main_v87 (F := Ideal) (m ((c : Thread nD τ).loc main_arg4))) := by
  refine (host2_b1 (W4 m c)).trans ?_
  rw [W4_arg m c main_arg4 (by decide)]
theorem in2_4 : ar2_4 (V5 m) c = Cert.ReferenceIdeal.Read.val_main_v94 (F := Ideal) (m ((c : Thread nD τ).loc main_arg5)) := by
  refine (host2_w2 (W4 m c)).trans ?_
  rw [W4_arg m c main_arg5 (by decide)]
theorem in2_5 : ar2_5 (V5 m) c = Cert.Spec.rowOf (Cert.ReferenceIdeal.Read.val_main_v97 (F := Ideal) (m ((c : Thread nD τ).loc main_arg6))) := by
  refine (host2_b2 (W4 m c)).trans ?_
  rw [W4_arg m c main_arg6 (by decide)]
theorem in2_6 : ar2_6 (V5 m) c = Cert.Spec.colOf (m ((c : Thread nD τ).loc main_arg2)) := by
  refine (host2_bt (W4 m c)).trans ?_
  rw [W4_arg m c main_arg2 (by decide)]

theorem W6_h : W6 m c (Proc.devRef .tc main_v75_0) = (Cert.ReferenceIdeal.Lay.H3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W6_arr m c 7).trans ?_
  refine (arr2_7 (V5 m) c).trans ?_
  rw [in2_0 m c, in2_1 m c, in2_2 m c, in2_3 m c, in2_4 m c, in2_5 m c]
  exact (Cert.ReferenceIdeal.Lay.ref_h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

theorem W6_p : W6 m c (Proc.devRef .tc main_v75_1) = (Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m c 8).trans ?_
  refine (arr2_8 (V5 m) c).trans ?_
  rw [in2_0 m c, in2_1 m c, in2_2 m c, in2_3 m c, in2_4 m c, in2_5 m c, in2_6 m c]
  refine Eq.trans ?_ (Cert.ReferenceIdeal.Lay.ref_p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm
  rw [Cert.ReferenceIdeal.Lay.ref_h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))]

theorem W6_keep1 : W6 m c (Proc.devRef .tc main_v27_1) = (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    exact (W6_of_ne m c main_v27_1 (by decide)).trans ((host2_keep (W4 m c) main_v27_1 (by decide)).trans (W4_keep1 m c))
theorem W6_keep2 : W6 m c (Proc.devRef .tc main_v51_1) = (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    exact (W6_of_ne m c main_v51_1 (by decide)).trans ((host2_keep (W4 m c) main_v51_1 (by decide)).trans (W4_p m c))

end

theorem result_eq (m : (ℓ : Loc nD τ sig) → Buf (Elt Ideal) ℓ) (c : Dev nD) :
    W7 m c (Proc.devRef .tc main_v76) = (Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (host3_out (W6 m c)).trans ?_
  rw [W6_keep1 m c, W6_keep2 m c, W6_p m c]
  rfl

end Cert.KernelIdeal.Val

end
-- ==== Proof.lean ====
import proofs.«404761_j17377437680137_2_alg».proof.Defs
import proofs.«404761_j17377437680137_2_alg».proof.Proof.Gen.Kernel
import proofs.«404761_j17377437680137_2_alg».proof.Proof.Gen.KernelIdeal
import proofs.«404761_j17377437680137_2_alg».proof.Proof.Gen.ReferenceIdeal
import proofs.«404761_j17377437680137_2_alg».proof.Proof.Gen.Pre_finite_inputs
import proofs.«404761_j17377437680137_2_alg».proof.Proof.K.Launch
import proofs.«404761_j17377437680137_2_alg».proof.Proof.KI.Launch
import proofs.«404761_j17377437680137_2_alg».proof.Proof.RefRun
import proofs.«404761_j17377437680137_2_alg».proof.Proof.KI.Val.Result
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Fr in
/-- Both programs end with the reference's term of the arguments: the kernel program's result buffer holds it at the
    last boundary's contents. -/
theorem algebraic : Cert.algebraic_KernelIdeal_ReferenceIdeal := by
  intro m ρ m' ρ' _ hagree
  refine ⟨fun c => W7 m c (Proc.devRef .tc main_v76), ?_, ?_⟩
  · exact (θ_run Cert.KernelIdeal.defs _ _).mono (fun r h c =>
      ⟨h c _ (mem_uc main_v76 (by decide)), kept m r h c⟩)
      (run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v106_eq, (hagree c).1, (hagree c).2.1, (hagree c).2.2.1, (hagree c).2.2.2.1,
      (hagree c).2.2.2.2.1, (hagree c).2.2.2.2.2.1, (hagree c).2.2.2.2.2.2]
    exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
